-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v40_0)) (v3 : (c : Dev Cert.KernelIdeal.nD) → Buf (Elt Ideal) ((c.tc : Thread Cert.KernelIdeal.nD Cert.KernelIdeal.τ).loc Cert.KernelIdeal.main_v40_1)) (v4 : (c : Dev Cert.KernelIdeal.nD) → Buf (Elt Ideal) ((c.tc : Thread Cert.KernelIdeal.nD Cert.KernelIdeal.τ).loc Cert.KernelIdeal.main_v40_2)) (v5 : (c : Dev Cert.KernelIdeal.nD) → Buf (Elt Ideal) ((c.tc : Thread Cert.KernelIdeal.nD Cert.KernelIdeal.τ).loc Cert.KernelIdeal.main_v40_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v40_0) = v2 c
          ∧ r.2.mem ((c.tc : Thread Cert.KernelIdeal.nD Cert.KernelIdeal.τ).loc Cert.KernelIdeal.main_v40_1) = v3 c
          ∧ r.2.mem ((c.tc : Thread Cert.KernelIdeal.nD Cert.KernelIdeal.τ).loc Cert.KernelIdeal.main_v40_2) = v4 c
          ∧ r.2.mem ((c.tc : Thread Cert.KernelIdeal.nD Cert.KernelIdeal.τ).loc Cert.KernelIdeal.main_v40_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v145) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000001x64 : Shape := ⟨2, ![1000001, 64]⟩
abbrev S100001x64 : Shape := ⟨2, ![100001, 64]⟩
abbrev S1001x64 : Shape := ⟨2, ![1001, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S192x256 : Shape := ⟨2, ![192, 256]⟩
abbrev S16384 : Shape := ⟨1, ![16384]⟩
abbrev S131072 : Shape := ⟨1, ![131072]⟩
abbrev S65536 : Shape := ⟨1, ![65536]⟩
abbrev S_ : Shape := ⟨0, ![]⟩

class Facts : Prop where
  bcast_S_S1000001x64 : S_.BroadcastsInDim S1000001x64 (![] : Fin 0 → Fin S1000001x64.rank)
  reducesTo_S1000001x64_S_d0_1 : S1000001x64.ReducesTo [0, 1] S_
  h_S_ : 0 < S_.numel
  bcast_S_S100001x64 : S_.BroadcastsInDim S100001x64 (![] : Fin 0 → Fin S100001x64.rank)
  reducesTo_S100001x64_S_d0_1 : S100001x64.ReducesTo [0, 1] S_
  bcast_S_S1001x64 : S_.BroadcastsInDim S1001x64 (![] : Fin 0 → Fin S1001x64.rank)
  reducesTo_S1001x64_S_d0_1 : S1001x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S192x256 : S_.BroadcastsInDim S192x256 (![] : Fin 0 → Fin S192x256.rank)
  reducesTo_S192x256_S_d0_1 : S192x256.ReducesTo [0, 1] S_

variable [Facts]

def fn_part3 {F : FTy → Type} [FloatOps F] (main_arg11 : FVec F S256x64 .f32) (main_arg12 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x64 .f32 := Host.absf main_arg11
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S256x64 .f32) (main_arg8 : FVec F S64 .f32) (main_arg9 : FVec F S192x256 .f32) (main_arg10 : FVec F S256 .f32) (main_arg11 : FVec F S256x64 .f32) (main_arg12 : FVec F S64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x256 .f32 := Host.absf main_arg9
  let main_cst_16 : FVec F S_ .f32 := constant S_ .f32 0x7F800000#32
  let main_v45 : FVec F S192x256 .f32 := broadcastInDim S192x256 ![] bcast_S_S192x256 main_cst_16
  let main_v46 : IVec S192x256 1 := cmpf .olt main_v44 main_v45
  let main_c_17 : IVec S_ 1 := constantI S_ 1 1#1
  let main_v47 : IVec S_ 1 := (fun x v => Host.reduce IntOp.andi x v reducesTo_S192x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S100001x64 .f32) (main_arg5 : FVec F S128x256 .f32) (main_arg6 : FVec F S256 .f32) (main_arg7 : FVec F S256x64 .f32) (main_arg8 : FVec F S64 .f32) (main_arg9 : FVec F S192x256 .f32) (main_arg10 : FVec F S256 .f32) (main_arg11 : FVec F S256x64 .f32) (main_arg12 : FVec F S64 .f32) (main_v13 : IVec S_ 1) (main_v16 : IVec S100001x64 1) : IVec S_ 1 :=
  let main_c_5 : IVec S_ 1 := constantI S_ 1 1#1
  let main_v17 : IVec S_ 1 := (fun x v => Host.reduce IntOp.andi x v reducesTo_S100001x64_S_d0_1 h_S_) main_v16 main_c_5
  let main_v18 : IVec S_ 1 := andi main_v13 main_v17
  let main_v19 : FVec F S100001x64 .f32 := Host.absf main_arg4
  let main_cst_6 : FVec F S_ .f32 := constant S_ .f32 0x7F800000#32
  let main_v20 : FVec F S100001x64 .f32 := broadcastInDim S100001x64 ![] bcast_S_S100001x64 main_cst_6
  let main_v21 : IVec S100001x64 1 := cmpf .olt main_v19 main_v20
  let main_c_7 : IVec S_ 1 := constantI S_ 1 1#1
  let main_v22 : IVec S_ 1 := (fun x v => Host.reduce IntOp.andi x v reducesTo_S100001x64_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1000001x64 .f32) (main_arg1 : FVec F S100001x64 .f32) (main_arg2 : FVec F S1001x64 .f32) (main_arg3 : FVec F S100001x64 .f32) (main_arg4 : FVec F S100001x64 .f32) (main_arg5 : FVec F S128x256 .f32) (main_arg6 : FVec F S256 .f32) (main_arg7 : FVec F S256x64 .f32) (main_arg8 : FVec F S64 .f32) (main_arg9 : FVec F S192x256 .f32) (main_arg10 : FVec F S256 .f32) (main_arg11 : FVec F S256x64 .f32) (main_arg12 : FVec F S64 .f32) (main_arg13 : IVec S16384 32) (main_arg14 : IVec S131072 32) (main_arg15 : IVec S131072 32) (main_arg16 : IVec S16384 32) (main_arg17 : IVec S65536 32) (main_arg18 : IVec S65536 32) : IVec S_ 1 :=
  let main_v0 : FVec F S1000001x64 .f32 := Host.absf main_arg0
  let main_cst : FVec F S_ .f32 := constant S_ .f32 0x7F800000#32
  let main_v1 : FVec F S1000001x64 .f32 := broadcastInDim S1000001x64 ![] bcast_S_S1000001x64 main_cst
  let main_v2 : IVec S1000001x64 1 := cmpf .olt main_v0 main_v1
  let main_c : IVec S_ 1 := constantI S_ 1 1#1
  let main_v3 : IVec S_ 1 := (fun x v => Host.reduce IntOp.andi x v reducesTo_S1000001x64_S_d0_1 h_S_) main_v2 main_c
  let main_v4 : FVec F S100001x64 .f32 := Host.absf main_arg1
  let main_cst_0 : FVec F S_ .f32 := constant S_ .f32 0x7F800000#32
  let main_v5 : FVec F S100001x64 .f32 := broadcastInDim S100001x64 ![] bcast_S_S100001x64 main_cst_0
  let main_v6 : IVec S100001x64 1 := cmpf .olt main_v4 main_v5
  let main_c_1 : IVec S_ 1 := constantI S_ 1 1#1
  let main_v7 : IVec S_ 1 := (fun x v => Host.reduce IntOp.andi x v reducesTo_S100001x64_S_d0_1 h_S_) main_v6 main_c_1
  let main_v8 : IVec S_ 1 := andi main_v3 main_v7
  let main_v9 : FVec F S1001x64 .f32 := Host.absf main_arg2
  let main_cst_2 : FVec F S_ .f32 := constant S_ .f32 0x7F800000#32
  let main_v10 : FVec F S1001x64 .f32 := broadcastInDim S1001x64 ![] bcast_S_S1001x64 main_cst_2
  let main_v11 : IVec S1001x64 1 := cmpf .olt main_v9 main_v10
  let main_c_3 : IVec S_ 1 := constantI S_ 1 1#1
  let main_v12 : IVec S_ 1 := (fun x v => Host.reduce IntOp.andi x v reducesTo_S1001x64_S_d0_1 h_S_) main_v11 main_c_3
  let main_v13 : IVec S_ 1 := andi main_v8 main_v12
  let main_v14 : FVec F S100001x64 .f32 := Host.absf main_arg3
  let main_cst_4 : FVec F S_ .f32 := constant S_ .f32 0x7F800000#32
  let main_v15 : FVec F S100001x64 .f32 := broadcastInDim S100001x64 ![] bcast_S_S100001x64 main_cst_4
  let main_v16 : IVec S100001x64 1 := cmpf .olt main_v14 main_v15
  fn_part1 (F := F) main_arg4 main_arg5 main_arg6 main_arg7 main_arg8 main_arg9 main_arg10 main_arg11 main_arg12 main_v13 main_v16
-- ==== Kernel.lean ====
abbrev S1000001x64 : Shape := ⟨2, ![1000001, 64]⟩
abbrev S100001x64 : Shape := ⟨2, ![100001, 64]⟩
abbrev S1001x64 : Shape := ⟨2, ![1001, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S192x256 : Shape := ⟨2, ![192, 256]⟩
abbrev S16384 : Shape := ⟨1, ![16384]⟩
abbrev S131072 : Shape := ⟨1, ![131072]⟩
abbrev S65536 : Shape := ⟨1, ![65536]⟩
abbrev S_ : Shape := ⟨0, ![]⟩
abbrev S131072x1 : Shape := ⟨2, ![131072, 1]⟩
abbrev S131072x64 : Shape := ⟨2, ![131072, 64]⟩
abbrev S16384x1 : Shape := ⟨2, ![16384, 1]⟩
abbrev S16384x64 : Shape := ⟨2, ![16384, 64]⟩
abbrev S65536x1 : Shape := ⟨2, ![65536, 1]⟩
abbrev S65536x64 : Shape := ⟨2, ![65536, 64]⟩
abbrev S4096 : Shape := ⟨1, ![4096]⟩
abbrev S4096x64 : Shape := ⟨2, ![4096, 64]⟩
abbrev S1024x64 : Shape := ⟨2, ![1024, 64]⟩
abbrev S1024x1 : Shape := ⟨2, ![1024, 1]⟩
abbrev S1x4096 : Shape := ⟨2, ![1, 4096]⟩
abbrev S1024x4096 : Shape := ⟨2, ![1024, 4096]⟩
abbrev S4096x1 : Shape := ⟨2, ![4096, 1]⟩
abbrev S4096x65 : Shape := ⟨2, ![4096, 65]⟩
abbrev S1024x65 : Shape := ⟨2, ![1024, 65]⟩
abbrev S2048x64 : Shape := ⟨2, ![2048, 64]⟩
abbrev S2048x128 : Shape := ⟨2, ![2048, 128]⟩
abbrev S2048x256 : Shape := ⟨2, ![2048, 256]⟩
abbrev S1x256 : Shape := ⟨2, ![1, 256]⟩
abbrev S1x64 : Shape := ⟨2, ![1, 64]⟩
abbrev S2048 : Shape := ⟨1, ![2048]⟩
abbrev S2048x1 : Shape := ⟨2, ![2048, 1]⟩
abbrev S2048x192 : Shape := ⟨2, ![2048, 192]⟩

abbrev nBuf : Space → Nat
  | .hbm => 74
  | .vmem => 46
  | .smem => 0
  | _ => 0

abbrev bufTy : (tb : Table) → Fin (tcTables nBuf tb) → BufTy
  | .hbm, ⟨0, _⟩ => ⟨S1000001x64, .f32⟩
  | .hbm, ⟨1, _⟩ => ⟨S100001x64, .f32⟩
  | .hbm, ⟨2, _⟩ => ⟨S1001x64, .f32⟩
  | .hbm, ⟨3, _⟩ => ⟨S100001x64, .f32⟩
  | .hbm, ⟨4, _⟩ => ⟨S100001x64, .f32⟩
  | .hbm, ⟨5, _⟩ => ⟨S128x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S192x256, .f32⟩
  | .hbm, ⟨10, _⟩ => ⟨S256, .f32⟩
  | .hbm, ⟨11, _⟩ => ⟨S256x64, .f32⟩
  | .hbm, ⟨12, _⟩ => ⟨S64, .f32⟩
  | .hbm, ⟨13, _⟩ => ⟨S16384, .i32⟩
  | .hbm, ⟨14, _⟩ => ⟨S131072, .i32⟩
  | .hbm, ⟨15, _⟩ => ⟨S131072, .i32⟩
  | .hbm, ⟨16, _⟩ => ⟨S16384, .i32⟩
  | .hbm, ⟨17, _⟩ => ⟨S65536, .i32⟩
  | .hbm, ⟨18, _⟩ => ⟨S65536, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x64, .f32⟩
  | .hbm, ⟨28, _⟩ => ⟨S131072x64, .bf16⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x64, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x64, .f32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S65536x64, .f32⟩
  | .hbm, ⟨56, _⟩ => ⟨S65536x64, .bf16⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S16384x64, .f32⟩
  | .hbm, ⟨66, _⟩ => ⟨S16384x64, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S16384x64, .f32⟩
  | .local _ .vmem, ⟨0, _⟩ => ⟨S4096, .i32⟩
  | .local _ .vmem, ⟨1, _⟩ => ⟨S4096, .i32⟩
  | .local _ .vmem, ⟨2, _⟩ => ⟨S4096x64, .bf16⟩
  | .local _ .vmem, ⟨3, _⟩ => ⟨S4096x64, .bf16⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x1, .f32⟩
  | .local _ .vmem, ⟨8, _⟩ => ⟨S4096, .i32⟩
  | .local _ .vmem, ⟨9, _⟩ => ⟨S4096, .i32⟩
  | .local _ .vmem, ⟨10, _⟩ => ⟨S4096x64, .bf16⟩
  | .local _ .vmem, ⟨11, _⟩ => ⟨S4096x64, .bf16⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x1, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S128x256, .f32⟩
  | .local _ .vmem, ⟨21, _⟩ => ⟨S256, .f32⟩
  | .local _ .vmem, ⟨22, _⟩ => ⟨S256x64, .f32⟩
  | .local _ .vmem, ⟨23, _⟩ => ⟨S64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S192x256, .f32⟩
  | .local _ .vmem, ⟨35, _⟩ => ⟨S256, .f32⟩
  | .local _ .vmem, ⟨36, _⟩ => ⟨S256x64, .f32⟩
  | .local _ .vmem, ⟨37, _⟩ => ⟨S64, .f32⟩
  | .local _ .vmem, ⟨38, _⟩ => ⟨S2048x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | .local _ .vmem, ⟨44, _⟩ => ⟨S2048x64, .f32⟩
  | .local _ .vmem, ⟨45, _⟩ => ⟨S2048x64, .f32⟩
  | _, _ => ⟨S1000001x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39_0 : Ref sig .tc := ⟨.hbm, 68, rfl⟩
abbrev main_v39_1 : Ref sig .tc := ⟨.hbm, 69, rfl⟩
abbrev main_v40_0 : Ref sig .tc := ⟨.hbm, 70, rfl⟩
abbrev main_v40_1 : Ref sig .tc := ⟨.hbm, 71, rfl⟩
abbrev main_v40_2 : Ref sig .tc := ⟨.hbm, 72, rfl⟩
abbrev main_v40_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc3_stg10_0 : Ref sig .tc := ⟨.vmem, 44, rfl⟩
abbrev cc3_stg10_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc3_sem8_0 : DmaSem sig := 36
abbrev cc3_sem8_1 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_12 : BitVec 32 := 0#32
  let v34 : BitVec 1 := Scalar.cmpi .ne v33 c0_i32_12
  v34

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_12 : BitVec 32 := 0#32
  let v34 : BitVec 1 := Scalar.cmpi .ne v33 c0_i32_12
  v34

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S192x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2048x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2048x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2048x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  bcast_S_S65536 : S_.BroadcastsInDim S65536 (![] : Fin 0 → Fin S65536.rank)
  bcast_S65536_S65536x1_0 : S65536.BroadcastsInDim S65536x1 (![0] : Fin 1 → Fin S65536x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  inb_S4096_S4096_0 : ∀ a, (![0] : Fin 1 → Nat) a + S4096.size a ≤ S4096.size a
  h_S4096 : 0 < S4096.numel
  shapeCasts_S4096_S1x4096 : S4096.ShapeCasts S1x4096
  broadcasts_S1024x1_S1024x4096 : S1024x1.Broadcasts S1024x4096
  broadcasts_S1x4096_S1024x4096 : S1x4096.Broadcasts S1024x4096
  natLt_1_32 : 1 < 32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  concatenates_S4096x64_S4096x1_S4096x65_d1 : Shape.Concatenates [S4096x64, S4096x1] S4096x65 1
  slices_S1024x65_o0_0_S1024x64 : S1024x65.Slices ![0, 0] S1024x64
  slices_S1024x65_o0_64_S1024x1 : S1024x65.Slices ![0, 64] S1024x1
  broadcasts_S1024x1_S1024x64 : S1024x1.Broadcasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  concatenates_S2048x64_S2048x64_S2048x128_d1 : Shape.Concatenates [S2048x64, S2048x64] S2048x128 1
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  inb_S192x256_S192x256_0_0 : ∀ a, (![0, 0] : Fin 2 → Nat) a + S192x256.size a ≤ S192x256.size a
  h_S192x256 : 0 < S192x256.numel
  concatenates_S2048x64_S2048x64_S2048x64_S2048x192_d1 : Shape.Concatenates [S2048x64, S2048x64, S2048x64] S2048x192 1
  gather_S1000001x64_S131072x1_S131072x64_1_0_n_n_0_1_164_wf : GatherDims.WF S1000001x64 S131072x1 S131072x64 [1] [0] [] [0] [] 1 ![1, 64]
  gather_S100001x64_S16384x1_S16384x64_1_0_n_n_0_1_164_wf : GatherDims.WF S100001x64 S16384x1 S16384x64 [1] [0] [] [0] [] 1 ![1, 64]
  gather_S1001x64_S65536x1_S65536x64_1_0_n_n_0_1_164_wf : GatherDims.WF S1001x64 S65536x1 S65536x64 [1] [0] [] [0] [] 1 ![1, 64]
  dot_S1024x4096_S4096x65_S1024x65_1_0_0_1_n_n_wf : DotDims.WF S1024x4096 S4096x65 S1024x65 [1] [0] [0] [1] [] []
  dot_S2048x128_S128x256_S2048x256_1_0_0_1_n_n_wf : DotDims.WF S2048x128 S128x256 S2048x256 [1] [0] [0] [1] [] []
  dot_S2048x256_S256x64_S2048x64_1_0_0_1_n_n_wf : DotDims.WF S2048x256 S256x64 S2048x64 [1] [0] [0] [1] [] []
  dot_S2048x192_S192x256_S2048x256_1_0_0_1_n_n_wf : DotDims.WF S2048x192 S192x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S131072.size a
  hwx0_0 : ∀ i : grid0.Coords, EltTy.bits .i32 = 32 ∨ (Rect.block (s := S131072) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .bf16 = 32 ∨ (Rect.block (s := S131072x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S65536.size a
  hwx1_0 : ∀ i : grid1.Coords, EltTy.bits .i32 = 32 ∨ (Rect.block (s := S65536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S65536x64.size a
  hwx1_1 : ∀ i : grid1.Coords, EltTy.bits .bf16 = 32 ∨ (Rect.block (s := S65536x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S16384x64.size a
  hwx1_2 : ∀ i : grid1.Coords, EltTy.bits .f32 = 32 ∨ (Rect.block (s := S16384x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .f32 = 32 ∨ (Rect.block (s := S16384x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S256x64.size a
  hwx2_4 : ∀ i : grid2.Coords, EltTy.bits .f32 = 32 ∨ (Rect.block (s := S256x64) S256x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x64.size a ≤ S16384x64.size a
  hwx2_6 : ∀ i : grid2.Coords, EltTy.bits .f32 = 32 ∨ (Rect.block (s := S16384x64) S2048x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x64.size a ≤ S16384x64.size a
  hwx2_7 : ∀ i : grid2.Coords, EltTy.bits .f32 = 32 ∨ (Rect.block (s := S16384x64) S2048x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S16384x64.size a
  hwx3_0 : ∀ i : grid3.Coords, EltTy.bits .f32 = 32 ∨ (Rect.block (s := S16384x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .f32 = 32 ∨ (Rect.block (s := S16384x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S16384x64.size a
  hwx3_2 : ∀ i : grid3.Coords, EltTy.bits .f32 = 32 ∨ (Rect.block (s := S16384x64) S2048x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x256.size a ≤ S192x256.size a
  hwx3_3 : ∀ i : grid3.Coords, EltTy.bits .f32 = 32 ∨ (Rect.block (s := S192x256) S192x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x64.size a ≤ S256x64.size a
  hwx3_5 : ∀ i : grid3.Coords, EltTy.bits .f32 = 32 ∨ (Rect.block (s := S256x64) S256x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x64.size a ≤ S16384x64.size a
  hwx3_7 : ∀ i : grid3.Coords, EltTy.bits .f32 = 32 ∨ (Rect.block (s := S16384x64) S2048x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x64.size a ≤ S16384x64.size a
  hwx3_8 : ∀ i : grid3.Coords, EltTy.bits .f32 = 32 ∨ (Rect.block (s := S16384x64) S2048x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2048x64.size a ≤ S16384x64.size a
  hwx3_9 : ∀ i : grid3.Coords, EltTy.bits .f32 = 32 ∨ (Rect.block (s := S16384x64) S2048x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2048x64.size a ≤ S16384x64.size a
  hwx3_10 : ∀ i : grid3.Coords, EltTy.bits .f32 = 32 ∨ (Rect.block (s := S16384x64) S2048x64.size (cc3_transform_10 i) (hinb3_10 i)).WholeWords (EltTy.packing .f32)

variable [Facts₀]

def gather_S1000001x64_S131072x1_S131072x64_1_0_n_n_0_1_164 : GatherDims S1000001x64 S131072x1 S131072x64 where
  offsetDims := [1]
  collapsedSliceDims := [0]
  operandBatchingDims := []
  startIndicesBatchingDims := []
  startIndexMap := [0]
  indexVectorDim := 1
  sliceSizes := ![1, 64]
  wf := gather_S1000001x64_S131072x1_S131072x64_1_0_n_n_0_1_164_wf
def gather_S100001x64_S16384x1_S16384x64_1_0_n_n_0_1_164 : GatherDims S100001x64 S16384x1 S16384x64 where
  offsetDims := [1]
  collapsedSliceDims := [0]
  operandBatchingDims := []
  startIndicesBatchingDims := []
  startIndexMap := [0]
  indexVectorDim := 1
  sliceSizes := ![1, 64]
  wf := gather_S100001x64_S16384x1_S16384x64_1_0_n_n_0_1_164_wf
def gather_S1001x64_S65536x1_S65536x64_1_0_n_n_0_1_164 : GatherDims S1001x64 S65536x1 S65536x64 where
  offsetDims := [1]
  collapsedSliceDims := [0]
  operandBatchingDims := []
  startIndicesBatchingDims := []
  startIndexMap := [0]
  indexVectorDim := 1
  sliceSizes := ![1, 64]
  wf := gather_S1001x64_S65536x1_S65536x64_1_0_n_n_0_1_164_wf
def dot_S1024x4096_S4096x65_S1024x65_1_0_0_1_n_n : DotDims S1024x4096 S4096x65 S1024x65 where
  lhsContracting := [1]
  rhsContracting := [0]
  lhsNonContracting := [0]
  rhsNonContracting := [1]
  lhsBatch := []
  rhsBatch := []
  wf := dot_S1024x4096_S4096x65_S1024x65_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x192_S192x256_S2048x256_1_0_0_1_n_n : DotDims S2048x192 S192x256 S2048x256 where
  lhsContracting := [1]
  rhsContracting := [0]
  lhsNonContracting := [0]
  rhsNonContracting := [1]
  lhsBatch := []
  rhsBatch := []
  wf := dot_S2048x192_S192x256_S2048x256_1_0_0_1_n_n_wf

abbrev win0_0 : Pipeline.Window sig grid0 :=
  Pipeline.Window.ofSpec (Memref.whole main_arg15) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg18) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v37) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S256x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39_0) S2048x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v39_1) S2048x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v21) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S192x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S256x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40_0) S2048x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v40_1) S2048x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v40_2) S2048x64.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v40_3) S2048x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S1000001x64 : Shape := ⟨2, ![1000001, 64]⟩
abbrev S100001x64 : Shape := ⟨2, ![100001, 64]⟩
abbrev S1001x64 : Shape := ⟨2, ![1001, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S192x256 : Shape := ⟨2, ![192, 256]⟩
abbrev S16384 : Shape := ⟨1, ![16384]⟩
abbrev S131072 : Shape := ⟨1, ![131072]⟩
abbrev S65536 : Shape := ⟨1, ![65536]⟩
abbrev S_ : Shape := ⟨0, ![]⟩
abbrev S131072x1 : Shape := ⟨2, ![131072, 1]⟩
abbrev S131072x64 : Shape := ⟨2, ![131072, 64]⟩
abbrev S16384x64 : Shape := ⟨2, ![16384, 64]⟩
abbrev S16384x1 : Shape := ⟨2, ![16384, 1]⟩
abbrev S16384x128 : Shape := ⟨2, ![16384, 128]⟩
abbrev S16384x256 : Shape := ⟨2, ![16384, 256]⟩
abbrev S1x256 : Shape := ⟨2, ![1, 256]⟩
abbrev S1x64 : Shape := ⟨2, ![1, 64]⟩
abbrev S65536x1 : Shape := ⟨2, ![65536, 1]⟩
abbrev S65536x64 : Shape := ⟨2, ![65536, 64]⟩
abbrev S16384x192 : Shape := ⟨2, ![16384, 192]⟩

abbrev nBuf : Space → Nat
  | .hbm => 204
  | .vmem => 0
  | .smem => 0
  | _ => 0

abbrev hbmTy0_0 (i : Nat) : BufTy := match i % 128 with
  | 0 => ⟨S1000001x64, .f32⟩
  | 1 => ⟨S100001x64, .f32⟩
  | 2 => ⟨S1001x64, .f32⟩
  | 3 => ⟨S100001x64, .f32⟩
  | 4 => ⟨S100001x64, .f32⟩
  | 5 => ⟨S128x256, .f32⟩
  | 6 => ⟨S256, .f32⟩
  | 7 => ⟨S256x64, .f32⟩
  | 8 => ⟨S64, .f32⟩
  | 9 => ⟨S192x256, .f32⟩
  | 10 => ⟨S256, .f32⟩
  | 11 => ⟨S256x64, .f32⟩
  | 12 => ⟨S64, .f32⟩
  | 13 => ⟨S16384, .i32⟩
  | 14 => ⟨S131072, .i32⟩
  | 15 => ⟨S131072, .i32⟩
  | 16 => ⟨S16384, .i32⟩
  | 17 => ⟨S65536, .i32⟩
  | 18 => ⟨S65536, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x64, .f32⟩
  | 28 => ⟨S_, .f32⟩
  | 29 => ⟨S16384x64, .f32⟩
  | 30 => ⟨S131072x1, .i32⟩
  | 31 => ⟨S16384x64, .f32⟩
  | 32 => ⟨S_, .f32⟩
  | 33 => ⟨S131072x1, .f32⟩
  | 34 => ⟨S_, .f32⟩
  | 35 => ⟨S16384x1, .f32⟩
  | 36 => ⟨S131072x1, .i32⟩
  | 37 => ⟨S16384x1, .f32⟩
  | 38 => ⟨S_, .f32⟩
  | 39 => ⟨S16384x1, .f32⟩
  | 40 => ⟨S16384x1, .f32⟩
  | 41 => ⟨S16384x64, .f32⟩
  | 42 => ⟨S16384x64, .f32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S16384x64, .f32⟩
  | 52 => ⟨S16384x128, .f32⟩
  | 53 => ⟨S16384x256, .f32⟩
  | 54 => ⟨S1x256, .f32⟩
  | 55 => ⟨S16384x256, .f32⟩
  | 56 => ⟨S16384x256, .f32⟩
  | 57 => ⟨S_, .f32⟩
  | 58 => ⟨S16384x256, .f32⟩
  | 59 => ⟨S16384x256, .f32⟩
  | 60 => ⟨S16384x64, .f32⟩
  | 61 => ⟨S1x64, .f32⟩
  | 62 => ⟨S16384x64, .f32⟩
  | 63 => ⟨S16384x64, .f32⟩
  | 64 => ⟨S16384x64, .f32⟩
  | 65 => ⟨S_, .f32⟩
  | 66 => ⟨S16384, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x64, .f32⟩
  | 73 => ⟨S16384x64, .f32⟩
  | 74 => ⟨S16384x64, .f32⟩
  | 75 => ⟨S_, .f32⟩
  | 76 => ⟨S16384, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x64, .f32⟩
  | 83 => ⟨S16384x64, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x64, .f32⟩
  | 93 => ⟨S_, .i32⟩
  | 94 => ⟨S65536, .i32⟩
  | 95 => ⟨S65536, .i1⟩
  | 96 => ⟨S_, .i32⟩
  | 97 => ⟨S65536, .i32⟩
  | 98 => ⟨S65536, .i32⟩
  | 99 => ⟨S65536, .i32⟩
  | 100 => ⟨S65536x1, .i32⟩
  | 101 => ⟨S65536x64, .f32⟩
  | 102 => ⟨S_, .f32⟩
  | 103 => ⟨S16384x64, .f32⟩
  | 104 => ⟨S65536x1, .i32⟩
  | 105 => ⟨S16384x64, .f32⟩
  | 106 => ⟨S_, .f32⟩
  | 107 => ⟨S65536x1, .f32⟩
  | 108 => ⟨S_, .f32⟩
  | 109 => ⟨S16384x1, .f32⟩
  | 110 => ⟨S65536x1, .i32⟩
  | 111 => ⟨S16384x1, .f32⟩
  | 112 => ⟨S_, .f32⟩
  | 113 => ⟨S16384x1, .f32⟩
  | 114 => ⟨S16384x1, .f32⟩
  | 115 => ⟨S16384x64, .f32⟩
  | 116 => ⟨S16384x64, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S16384x64, .f32⟩
  | 126 => ⟨S_, .f32⟩
  | 127 => ⟨S16384x64, .f32⟩
  | _ => ⟨S1000001x64, .f32⟩

abbrev hbmTy0_1 (i : Nat) : BufTy := match i % 128 with
  | 0 => ⟨S16384x192, .f32⟩
  | 1 => ⟨S16384x256, .f32⟩
  | 2 => ⟨S1x256, .f32⟩
  | 3 => ⟨S16384x256, .f32⟩
  | 4 => ⟨S16384x256, .f32⟩
  | 5 => ⟨S_, .f32⟩
  | 6 => ⟨S16384x256, .f32⟩
  | 7 => ⟨S16384x256, .f32⟩
  | 8 => ⟨S16384x64, .f32⟩
  | 9 => ⟨S1x64, .f32⟩
  | 10 => ⟨S16384x64, .f32⟩
  | 11 => ⟨S16384x64, .f32⟩
  | 12 => ⟨S16384x192, .f32⟩
  | 13 => ⟨S16384x256, .f32⟩
  | 14 => ⟨S1x256, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x64, .f32⟩
  | 21 => ⟨S1x64, .f32⟩
  | 22 => ⟨S16384x64, .f32⟩
  | 23 => ⟨S16384x64, .f32⟩
  | 24 => ⟨S16384x192, .f32⟩
  | 25 => ⟨S16384x256, .f32⟩
  | 26 => ⟨S1x256, .f32⟩
  | 27 => ⟨S16384x256, .f32⟩
  | 28 => ⟨S16384x256, .f32⟩
  | 29 => ⟨S_, .f32⟩
  | 30 => ⟨S16384x256, .f32⟩
  | 31 => ⟨S16384x256, .f32⟩
  | 32 => ⟨S16384x64, .f32⟩
  | 33 => ⟨S1x64, .f32⟩
  | 34 => ⟨S16384x64, .f32⟩
  | 35 => ⟨S16384x64, .f32⟩
  | 36 => ⟨S16384x64, .f32⟩
  | 37 => ⟨S_, .f32⟩
  | 38 => ⟨S16384, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x64, .f32⟩
  | 45 => ⟨S16384x64, .f32⟩
  | 46 => ⟨S16384x64, .f32⟩
  | 47 => ⟨S_, .f32⟩
  | 48 => ⟨S16384, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x64, .f32⟩
  | 55 => ⟨S16384x64, .f32⟩
  | 56 => ⟨S16384x64, .f32⟩
  | 57 => ⟨S_, .f32⟩
  | 58 => ⟨S16384, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x64, .f32⟩
  | 65 => ⟨S16384x64, .f32⟩
  | 66 => ⟨S16384x64, .f32⟩
  | 67 => ⟨S_, .f32⟩
  | 68 => ⟨S16384, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x64, .f32⟩
  | 75 => ⟨S16384x64, .f32⟩
  | _ => ⟨S1000001x64, .f32⟩

abbrev hbmTy (i : Nat) : BufTy := match i / 128 with
  | 0 => hbmTy0_0 i
  | 1 => hbmTy0_1 i
  | _ => ⟨S1000001x64, .f32⟩

abbrev bufTy : (tb : Table) → Fin (tcTables nBuf tb) → BufTy
  | .hbm, ⟨i, _⟩ => hbmTy i
  | _, _ => ⟨S1000001x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call0_cst : Ref sig .tc := ⟨.hbm, 57, rfl⟩
abbrev main_call0_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_17 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_18 : Ref sig .tc := ⟨.hbm, 117, rfl⟩
abbrev main_v76 : Ref sig .tc := ⟨.hbm, 118, rfl⟩
abbrev main_v77 : Ref sig .tc := ⟨.hbm, 119, rfl⟩
abbrev main_c_19 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_call1_cst : Ref sig .tc := ⟨.hbm, 133, rfl⟩
abbrev main_call1_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call2_cst : Ref sig .tc := ⟨.hbm, 145, rfl⟩
abbrev main_call2_v0 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call3_cst : Ref sig .tc := ⟨.hbm, 157, rfl⟩
abbrev main_call3_v0 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_21 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_22 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_23 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_25 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_26 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_27 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_28 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S16384x64 : S_.BroadcastsInDim S16384x64 (![] : Fin 0 → Fin S16384x64.rank)
  bcast_S_S131072x1 : S_.BroadcastsInDim S131072x1 (![] : Fin 0 → Fin S131072x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x128_d1 : Shape.Concatenates [S16384x64, S16384x64] S16384x128 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  concatenates_S16384x64_S16384x64_S16384x64_S16384x192_d1 : Shape.Concatenates [S16384x64, S16384x64, S16384x64] S16384x192 1
  gather_S1000001x64_S131072x1_S131072x64_1_0_n_n_0_1_164_wf : GatherDims.WF S1000001x64 S131072x1 S131072x64 [1] [0] [] [0] [] 1 ![1, 64]
  scatter_S16384x64_S131072x1_S131072x64_1_0_0_1_wf : ScatterDims.WF S16384x64 S131072x1 S131072x64 [1] [0] [0] 1
  scatter_S16384x1_S131072x1_S131072x1_1_0_0_1_wf : ScatterDims.WF S16384x1 S131072x1 S131072x1 [1] [0] [0] 1
  gather_S100001x64_S16384x1_S16384x64_1_0_n_n_0_1_164_wf : GatherDims.WF S100001x64 S16384x1 S16384x64 [1] [0] [] [0] [] 1 ![1, 64]
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  gather_S1001x64_S65536x1_S65536x64_1_0_n_n_0_1_164_wf : GatherDims.WF S1001x64 S65536x1 S65536x64 [1] [0] [] [0] [] 1 ![1, 64]
  scatter_S16384x64_S65536x1_S65536x64_1_0_0_1_wf : ScatterDims.WF S16384x64 S65536x1 S65536x64 [1] [0] [0] 1
  scatter_S16384x1_S65536x1_S65536x1_1_0_0_1_wf : ScatterDims.WF S16384x1 S65536x1 S65536x1 [1] [0] [0] 1
  dot_S16384x192_S192x256_S16384x256_1_0_0_1_n_n_wf : DotDims.WF S16384x192 S192x256 S16384x256 [1] [0] [0] [1] [] []

variable [Facts₀]

def gather_S1000001x64_S131072x1_S131072x64_1_0_n_n_0_1_164 : GatherDims S1000001x64 S131072x1 S131072x64 where
  offsetDims := [1]
  collapsedSliceDims := [0]
  operandBatchingDims := []
  startIndicesBatchingDims := []
  startIndexMap := [0]
  indexVectorDim := 1
  sliceSizes := ![1, 64]
  wf := gather_S1000001x64_S131072x1_S131072x64_1_0_n_n_0_1_164_wf
def scatter_S16384x64_S131072x1_S131072x64_1_0_0_1 : ScatterDims S16384x64 S131072x1 S131072x64 where
  updateWindowDims := [1]
  insertedWindowDims := [0]
  scatterDimsToOperandDims := [0]
  indexVectorDim := 1
  wf := scatter_S16384x64_S131072x1_S131072x64_1_0_0_1_wf
def scatter_S16384x1_S131072x1_S131072x1_1_0_0_1 : ScatterDims S16384x1 S131072x1 S131072x1 where
  updateWindowDims := [1]
  insertedWindowDims := [0]
  scatterDimsToOperandDims := [0]
  indexVectorDim := 1
  wf := scatter_S16384x1_S131072x1_S131072x1_1_0_0_1_wf
def gather_S100001x64_S16384x1_S16384x64_1_0_n_n_0_1_164 : GatherDims S100001x64 S16384x1 S16384x64 where
  offsetDims := [1]
  collapsedSliceDims := [0]
  operandBatchingDims := []
  startIndicesBatchingDims := []
  startIndexMap := [0]
  indexVectorDim := 1
  sliceSizes := ![1, 64]
  wf := gather_S100001x64_S16384x1_S16384x64_1_0_n_n_0_1_164_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S1001x64_S65536x1_S65536x64_1_0_n_n_0_1_164 : GatherDims S1001x64 S65536x1 S65536x64 where
  offsetDims := [1]
  collapsedSliceDims := [0]
  operandBatchingDims := []
  startIndicesBatchingDims := []
  startIndexMap := [0]
  indexVectorDim := 1
  sliceSizes := ![1, 64]
  wf := gather_S1001x64_S65536x1_S65536x64_1_0_n_n_0_1_164_wf
def scatter_S16384x64_S65536x1_S65536x64_1_0_0_1 : ScatterDims S16384x64 S65536x1 S65536x64 where
  updateWindowDims := [1]
  insertedWindowDims := [0]
  scatterDimsToOperandDims := [0]
  indexVectorDim := 1
  wf := scatter_S16384x64_S65536x1_S65536x64_1_0_0_1_wf
def scatter_S16384x1_S65536x1_S65536x1_1_0_0_1 : ScatterDims S16384x1 S65536x1 S65536x1 where
  updateWindowDims := [1]
  insertedWindowDims := [0]
  scatterDimsToOperandDims := [0]
  indexVectorDim := 1
  wf := scatter_S16384x1_S65536x1_S65536x1_1_0_0_1_wf
def dot_S16384x192_S192x256_S16384x256_1_0_0_1_n_n : DotDims S16384x192 S192x256 S16384x256 where
  lhsContracting := [1]
  rhsContracting := [0]
  lhsNonContracting := [0]
  rhsNonContracting := [1]
  lhsBatch := []
  rhsBatch := []
  wf := dot_S16384x192_S192x256_S16384x256_1_0_0_1_n_n_wf

class Facts : Prop extends Facts₀ where

variable [Facts]
-- ==== Proof.HKernelIdeal.Reg0.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

abbrev cond0_0 (i : grid0.Coords) : Prop :=
  (Scalar.cmpi .ne (Scalar.extui (Scalar.cmpi .eq (BitVec.ofNat 0x20 (i 1).val) 0#0x20)) 0#0x20) = 1#1

theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1

theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem liveAt0_2 : ∀ t : Fin cfg0.N, cond0_1 (grid0.coords t) → cfg0.idle 2 (grid0.coords t) = false := by decide +kernel

theorem noFlush0_2 (t : Fin cfg0.N) (h : ¬t.val % 32 = 31) : (cfg0.win 2).flush t = false :=
  Bool.eq_false_iff.mpr fun hf => h ((flush0_2 t).mp hf)

theorem hz0_1 : (![0] : Fin 1 → Nat) = fun _ => 0 := funext fun a => by fin_cases a <;> rfl
theorem hz0_2 : (![0, 0] : Fin 2 → Nat) = fun _ => 0 := funext fun a => by fin_cases a <;> rfl

theorem readAt_whole0 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  subst h; funext x
  rw [View.readAt_eq_ld]
  show v.read (Elt F) f ((Rect.whole S).emb x) = v.read (Elt F) f x
  rw [Rect.emb_whole_apply]

theorem read_writes_whole0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h; funext y
  have e := View.read_writes_cons_emb v f (Rect.whole S) w L y
  rwa [Rect.emb_whole_apply] at e

theorem readCov_whole0 {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w := by
  unfold View.readCov; rw [readAt_whole0 v _ h inb, read_writes_whole0 v _ h inb]

set_option maxHeartbeats 1000000 in

theorem run0_A (c : Dev nD) (E : Set ℕ) (i : grid0.Coords)
    (arg2 : Memref sig .tc .vmem S4096 .i32) (harg2 : arg2.IsWhole) (arg3 : Memref sig .tc .vmem S4096x64 .bf16) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1 .f32) (harg6 : arg6.IsWhole) (hcF : cond0_0 i) (hcL : ¬cond0_1 i)
    (xs : Vec F S4096 .i32) (xr : Vec F S4096x64 .bf16) (K : PUnit → sProp 𝕄) :
    iprop(owns (c : Thread nD τ) arg2 fullShare xs ∗ owns (c : Thread nD τ) arg3 fullShare xr
        ∗ (∃ d, owns (c : Thread nD τ) arg5 fullShare d) ∗ (∃ d, owns (c : Thread nD τ) arg6 fullShare d)
        ∗ (iprop(owns (c : Thread nD τ) arg2 fullShare xs ∗ owns (c : Thread nD τ) arg3 fullShare xr
            ∗ owns (c : Thread nD τ) arg5 fullShare (k0_pay4 i xs xr k0_pay1) ∗ owns (c : Thread nD τ) arg6 fullShare (k0_pay5 i xs xr k0_pay2)) -∗ K ⟨⟩))
      ⊢ wp frame (wpE (defs₀ (F := F)) Variants.none c none) E (cc0__segment_mean_kernel i arg2 harg2 arg3 harg3 arg4 harg4 arg5 harg5 arg6 harg6) K := by
  simp only [cc0__segment_mean_kernel_eq_skeleton]; unfold cc0__segment_mean_kernel_skel
  unfold owns
  iintro ⟨⟨%fs, %hfs, Hseg⟩, ⟨%fr, %hfr, Hrow⟩, ⟨%da, %fa, -, Hacc⟩, ⟨%dc, %fc, -, Hcnt⟩, Hk⟩
  obtain rfl := harg2.eq_unread hfs; obtain rfl := harg3.eq_unread hfr
  sl_exec (disch := first | exact hcF | exact hcL)
  sl_step
  iapply Hk
  isplitl [Hseg]
  · iexists _; isplitr; · ipureintro; exact harg2.read_unread _
    iexact Hseg
  isplitl [Hrow]
  · iexists _; isplitr; · ipureintro; exact harg3.read_unread _
    iexact Hrow
  isplitl [Hacc]
  · iexists _; isplitr
    swap; · iexact Hacc
    ipureintro
    sl_unfold_words
    simp only [read_writes_whole0 (S := S1024x64) _ _ hz0_2, readCov_whole0 (S := S1024x64) _ hz0_2,
      readAt_whole0 (S := S4096) _ _ hz0_1, readAt_whole0 (S := S4096x64) _ _ hz0_2, harg2.read_unread, harg3.read_unread]
  · iexists _; isplitr
    swap; · iexact Hcnt
    ipureintro
    sl_unfold_words
    simp only [read_writes_whole0 (S := S1024x1) _ _ hz0_2, readCov_whole0 (S := S1024x1) _ hz0_2,
      readAt_whole0 (S := S4096) _ _ hz0_1, readAt_whole0 (S := S4096x64) _ _ hz0_2, harg2.read_unread, harg3.read_unread]

set_option maxHeartbeats 1000000 in

theorem run0_B (c : Dev nD) (E : Set ℕ) (i : grid0.Coords)
    (arg2 : Memref sig .tc .vmem S4096 .i32) (harg2 : arg2.IsWhole) (arg3 : Memref sig .tc .vmem S4096x64 .bf16) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1 .f32) (harg6 : arg6.IsWhole) (hcF : ¬cond0_0 i) (hcL : ¬cond0_1 i)
    (xs : Vec F S4096 .i32) (xr : Vec F S4096x64 .bf16) (a : Vec F S1024x64 .f32) (b : Vec F S1024x1 .f32) (K : PUnit → sProp 𝕄) :
    iprop(owns (c : Thread nD τ) arg2 fullShare xs ∗ owns (c : Thread nD τ) arg3 fullShare xr
        ∗ owns (c : Thread nD τ) arg5 fullShare a ∗ owns (c : Thread nD τ) arg6 fullShare b
        ∗ (iprop(owns (c : Thread nD τ) arg2 fullShare xs ∗ owns (c : Thread nD τ) arg3 fullShare xr
            ∗ owns (c : Thread nD τ) arg5 fullShare (k0_pay4 i xs xr a) ∗ owns (c : Thread nD τ) arg6 fullShare (k0_pay5 i xs xr b)) -∗ K ⟨⟩))
      ⊢ wp frame (wpE (defs₀ (F := F)) Variants.none c none) E (cc0__segment_mean_kernel i arg2 harg2 arg3 harg3 arg4 harg4 arg5 harg5 arg6 harg6) K := by
  simp only [cc0__segment_mean_kernel_eq_skeleton]; unfold cc0__segment_mean_kernel_skel
  unfold owns
  iintro ⟨⟨%fs, %hfs, Hseg⟩, ⟨%fr, %hfr, Hrow⟩, ⟨%fa, %hfa, Hacc⟩, ⟨%fc, %hfc, Hcnt⟩, Hk⟩
  obtain rfl := harg2.eq_unread hfs; obtain rfl := harg3.eq_unread hfr
  obtain rfl := harg5.eq_unread hfa; obtain rfl := harg6.eq_unread hfc
  sl_exec (disch := first | exact hcF | exact hcL)
  sl_step
  iapply Hk
  isplitl [Hseg]
  · iexists _; isplitr; · ipureintro; exact harg2.read_unread _
    iexact Hseg
  isplitl [Hrow]
  · iexists _; isplitr; · ipureintro; exact harg3.read_unread _
    iexact Hrow
  isplitl [Hacc]
  · iexists _; isplitr
    swap; · iexact Hacc
    ipureintro
    sl_unfold_words
    simp only [read_writes_whole0 (S := S1024x64) _ _ hz0_2, readAt_whole0 (S := S1024x64) _ _ hz0_2,
      readAt_whole0 (S := S4096) _ _ hz0_1, readAt_whole0 (S := S4096x64) _ _ hz0_2, harg2.read_unread, harg3.read_unread, harg5.read_unread]
  · iexists _; isplitr
    swap; · iexact Hcnt
    ipureintro
    sl_unfold_words
    simp only [read_writes_whole0 (S := S1024x1) _ _ hz0_2, readAt_whole0 (S := S1024x1) _ _ hz0_2,
      readAt_whole0 (S := S4096) _ _ hz0_1, readAt_whole0 (S := S4096x64) _ _ hz0_2, harg2.read_unread, harg3.read_unread, harg6.read_unread]

set_option maxHeartbeats 1000000 in

theorem run0_C (c : Dev nD) (E : Set ℕ) (i : grid0.Coords)
    (arg2 : Memref sig .tc .vmem S4096 .i32) (harg2 : arg2.IsWhole) (arg3 : Memref sig .tc .vmem S4096x64 .bf16) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1 .f32) (harg6 : arg6.IsWhole) (hcF : ¬cond0_0 i) (hcL : cond0_1 i)
    (xs : Vec F S4096 .i32) (xr : Vec F S4096x64 .bf16) (a : Vec F S1024x64 .f32) (b : Vec F S1024x1 .f32) (K : PUnit → sProp 𝕄) :
    iprop(owns (c : Thread nD τ) arg2 fullShare xs ∗ owns (c : Thread nD τ) arg3 fullShare xr
        ∗ (∃ d, owns (c : Thread nD τ) arg4 fullShare d)
        ∗ owns (c : Thread nD τ) arg5 fullShare a ∗ owns (c : Thread nD τ) arg6 fullShare b
        ∗ (iprop(owns (c : Thread nD τ) arg2 fullShare xs ∗ owns (c : Thread nD τ) arg3 fullShare xr
            ∗ owns (c : Thread nD τ) arg4 fullShare (k0_pay6 (k0_pay4 i xs xr a) (k0_pay5 i xs xr b))
            ∗ owns (c : Thread nD τ) arg5 fullShare (k0_pay4 i xs xr a) ∗ owns (c : Thread nD τ) arg6 fullShare (k0_pay5 i xs xr b)) -∗ K ⟨⟩))
      ⊢ wp frame (wpE (defs₀ (F := F)) Variants.none c none) E (cc0__segment_mean_kernel i arg2 harg2 arg3 harg3 arg4 harg4 arg5 harg5 arg6 harg6) K := by
  simp only [cc0__segment_mean_kernel_eq_skeleton]; unfold cc0__segment_mean_kernel_skel
  unfold owns
  iintro ⟨⟨%fs, %hfs, Hseg⟩, ⟨%fr, %hfr, Hrow⟩, ⟨%dou, %fo, -, Hout⟩, ⟨%fa, %hfa, Hacc⟩, ⟨%fc, %hfc, Hcnt⟩, Hk⟩
  obtain rfl := harg2.eq_unread hfs; obtain rfl := harg3.eq_unread hfr
  obtain rfl := harg5.eq_unread hfa; obtain rfl := harg6.eq_unread hfc
  sl_exec (disch := first | exact hcF | exact hcL)
  sl_step
  iapply Hk
  isplitl [Hseg]
  · iexists _; isplitr; · ipureintro; exact harg2.read_unread _
    iexact Hseg
  isplitl [Hrow]
  · iexists _; isplitr; · ipureintro; exact harg3.read_unread _
    iexact Hrow
  isplitl [Hout]
  · iexists _; isplitr
    swap; · iexact Hout
    ipureintro
    sl_unfold_words
    simp only [read_writes_whole0 (S := S1024x64) _ _ hz0_2, readCov_whole0 (S := S1024x64) _ hz0_2, readCov_whole0 (S := S1024x1) _ hz0_2,
      readAt_whole0 (S := S1024x64) _ _ hz0_2, readAt_whole0 (S := S1024x1) _ _ hz0_2,
      readAt_whole0 (S := S4096) _ _ hz0_1, readAt_whole0 (S := S4096x64) _ _ hz0_2, harg2.read_unread, harg3.read_unread, harg5.read_unread, harg6.read_unread]
  isplitl [Hacc]
  · iexists _; isplitr
    swap; · iexact Hacc
    ipureintro
    sl_unfold_words
    simp only [read_writes_whole0 (S := S1024x64) _ _ hz0_2, readAt_whole0 (S := S1024x64) _ _ hz0_2,
      readAt_whole0 (S := S4096) _ _ hz0_1, readAt_whole0 (S := S4096x64) _ _ hz0_2, harg2.read_unread, harg3.read_unread, harg5.read_unread]
  · iexists _; isplitr
    swap; · iexact Hcnt
    ipureintro
    sl_unfold_words
    simp only [read_writes_whole0 (S := S1024x1) _ _ hz0_2, readAt_whole0 (S := S1024x1) _ _ hz0_2,
      readAt_whole0 (S := S4096) _ _ hz0_1, readAt_whole0 (S := S4096x64) _ _ hz0_2, harg2.read_unread, harg3.read_unread, harg6.read_unread]

def sc0 (c : Dev nD) : (n : ℕ) → n < cfg0.N → Vec F S1024x64 .f32 × Vec F S1024x1 .f32
  | 0, hn =>
    (k0_pay4 (grid0.coords ⟨0, hn⟩) (iblk0 V c 0 ⟨0, hn⟩) (iblk0 V c 1 ⟨0, hn⟩) k0_pay1,
      k0_pay5 (grid0.coords ⟨0, hn⟩) (iblk0 V c 0 ⟨0, hn⟩) (iblk0 V c 1 ⟨0, hn⟩) k0_pay2)
  | n + 1, hn =>
    if (n + 1) % 32 = 0 then
      (k0_pay4 (grid0.coords ⟨n + 1, hn⟩) (iblk0 V c 0 ⟨n + 1, hn⟩) (iblk0 V c 1 ⟨n + 1, hn⟩) k0_pay1,
        k0_pay5 (grid0.coords ⟨n + 1, hn⟩) (iblk0 V c 0 ⟨n + 1, hn⟩) (iblk0 V c 1 ⟨n + 1, hn⟩) k0_pay2)
    else
      (k0_pay4 (grid0.coords ⟨n + 1, hn⟩) (iblk0 V c 0 ⟨n + 1, hn⟩) (iblk0 V c 1 ⟨n + 1, hn⟩) (sc0 c n (Nat.lt_of_succ_lt hn)).1,
        k0_pay5 (grid0.coords ⟨n + 1, hn⟩) (iblk0 V c 0 ⟨n + 1, hn⟩) (iblk0 V c 1 ⟨n + 1, hn⟩) (sc0 c n (Nat.lt_of_succ_lt hn)).2)

theorem sc0_reset (c : Dev nD) (t : Fin cfg0.N) (h : t.val % 32 = 0) :
    sc0 V c t.val t.isLt
      = (k0_pay4 (grid0.coords t) (iblk0 V c 0 t) (iblk0 V c 1 t) k0_pay1,
          k0_pay5 (grid0.coords t) (iblk0 V c 0 t) (iblk0 V c 1 t) k0_pay2) := by
  obtain ⟨n, hn⟩ := t
  cases n with
  | zero => rfl
  | succ n => exact (if_pos h).trans rfl

theorem sc0_step (c : Dev nD) (t : Fin cfg0.N) (h : t.val % 32 ≠ 0) :
    sc0 V c t.val t.isLt
      = (k0_pay4 (grid0.coords t) (iblk0 V c 0 t) (iblk0 V c 1 t) (sc0 V c (t.val - 1) (Nat.lt_of_le_of_lt (Nat.sub_le _ _) t.isLt)).1,
          k0_pay5 (grid0.coords t) (iblk0 V c 0 t) (iblk0 V c 1 t) (sc0 V c (t.val - 1) (Nat.lt_of_le_of_lt (Nat.sub_le _ _) t.isLt)).2) := by
  obtain ⟨n, hn⟩ := t
  cases n with
  | zero => exact absurd (Nat.zero_mod _) h
  | succ n => exact (if_neg h).trans rfl

def out0_2 (c : Dev nD) (t : Fin cfg0.N) : Vec F S1024x64 .f32 :=
  k0_pay6 (sc0 V c t.val t.isLt).1 (sc0 V c t.val t.isLt).2

abbrev scM0_0 : Memref sig .tc .vmem S1024x64 .f32 := Memref.whole cc0_scratch0
abbrev scM0_1 : Memref sig .tc .vmem S1024x1 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

def Phi0 (c : Dev nD) : (n : ℕ) → n ≤ cfg0.N → sProp 𝕄
  | 0, _ => Pipeline.ΦA spec0 c
  | n + 1, hn =>
    iprop(iprop(iprop(owns (c : Thread nD τ) scM0_0 fullShare (sc0 V c n hn).1 ∗ owns (c : Thread nD τ) scM0_1 fullShare (sc0 V c n hn).2)
      ∗ Pipeline.scopedRestBut (Ix := Unit) (Name := ℕ) (U := UR sig nD τ) (Lvl := ℕ) (Val := Elt F) spec0 c [cc0_scratch0, cc0_scratch1])
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn
      = iprop(iprop(iprop(owns (c : Thread nD τ) scM0_0 fullShare (sc0 V c n hn).1 ∗ owns (c : Thread nD τ) scM0_1 fullShare (sc0 V c n hn).2)
        ∗ Pipeline.scopedRestBut (Ix := Unit) (Name := ℕ) (U := UR sig nD τ) (Lvl := ℕ) (Val := Elt F) spec0 c [cc0_scratch0, cc0_scratch1])
        ∗ (∃ r, prngReg c r)) := rfl

theorem Phi0_pos (c : Dev nD) (n : ℕ) (h : n ≤ cfg0.N) (hz : n ≠ 0) :
    Phi0 V c n h
      = iprop(iprop(iprop(owns (c : Thread nD τ) scM0_0 fullShare (sc0 V c (n - 1) (by omega)).1 ∗ owns (c : Thread nD τ) scM0_1 fullShare (sc0 V c (n - 1) (by omega)).2)
        ∗ Pipeline.scopedRestBut (Ix := Unit) (Name := ℕ) (U := UR sig nD τ) (Lvl := ℕ) (Val := Elt F) spec0 c [cc0_scratch0, cc0_scratch1])
        ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]

theorem after0_2_last (c : Dev nD) (t : Fin cfg0.N) (h : t.val % 32 = 31) : (dat0 V c).after 2 t = out0_2 V c t :=
  after0_2 V c t

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 512 := lt_of_lt_of_eq t.isLt (by decide : cfg0.N = 512)
  by_cases hL : t.val % 32 = 31
  ·
    have hF : t.val % 32 ≠ 0 := by omega
    have hz : t.val ≠ 0 := by omega
    have hcF : ¬cond0_0 (grid0.coords t) := fun h => hF ((hcond0_0 t).mp h)
    have hcL : cond0_1 (grid0.coords t) := (hcond0_1 t).mpr hL
    rw [show (dat0 V c).leavesExact 2 t = owns (c : Thread nD τ) (st0_2 t) fullShare ((dat0 V c).after 2 t) from by
      unfold Dat.leavesExact; rw [liveAt0_2 t hcL], after0_2]
    unfold out0_2
    rw [sc0_step V c t hF]; dsimp only
    rw [Phi0_castSucc V c t, Phi0_pos V c _ _ hz]
    iintro ⟨⟨⟨⟨Hacc, Hcnt⟩, HR⟩, Hg⟩, Howe, ⟨%ds, Hseg⟩, ⟨%dr, Hrow⟩, ⟨%dou, Hout⟩⟩
    iapply (run0_C c Set.univ (grid0.coords t) _ _ _ _ _ _ _ _ _ _ hcF hcL (iblk0 V c 0 t) (iblk0 V c 1 t) _ _ _)
    isplitl [Hseg]; · iexact Hseg
    isplitl [Hrow]; · iexact Hrow
    isplitl [Hout]; · iexists _; iexact Hout
    isplitl [Hacc]; · iexact Hacc
    isplitl [Hcnt]; · iexact Hcnt
    iintro ⟨Hseg, Hrow, Hout, Hacc, Hcnt⟩
    isplitl [Hacc Hcnt HR Hg]
    · isplitr [Hg]
      · isplitr [HR]
        · isplitl [Hacc]; · iexact Hacc
          iexact Hcnt
        iexact HR
      iexact Hg
    isplitl [Howe]; · iexact Howe
    isplitl [Hseg]; · iexact Hseg
    isplitl [Hrow]; · iexact Hrow
    iexact Hout
  · have hcL : ¬cond0_1 (grid0.coords t) := fun h => hL ((hcond0_1 t).mp h)
    rw [Dat.leavesExact_idle (dat0 V c) 2 t (idleAt0_2 t hcL) (noFlush0_2 t hL)]
    by_cases hF : t.val % 32 = 0
    ·
      have hcF : cond0_0 (grid0.coords t) := (hcond0_0 t).mpr hF
      rw [sc0_reset V c t hF]; dsimp only
      by_cases hz : t.val = 0
      · rw [Phi0_castSucc V c t, Phi0_zero V c _ _ hz, PhiA0_eq]
        iintro ⟨⟨⟨⟨Hacc, Hcnt⟩, HR⟩, Hg⟩, Howe, ⟨%ds, Hseg⟩, ⟨%dr, Hrow⟩, Hout⟩
        iapply (run0_A c Set.univ (grid0.coords t) _ _ _ _ _ _ _ _ _ _ hcF hcL (iblk0 V c 0 t) (iblk0 V c 1 t) _)
        isplitl [Hseg]; · iexact Hseg
        isplitl [Hrow]; · iexact Hrow
        isplitl [Hacc]; · iexact Hacc
        isplitl [Hcnt]; · iexact Hcnt
        iintro ⟨Hseg, Hrow, Hacc, Hcnt⟩
        isplitl [Hacc Hcnt HR Hg]
        · isplitr [Hg]
          · isplitr [HR]
            · isplitl [Hacc]; · iexact Hacc
              iexact Hcnt
            iexact HR
          iexact Hg
        isplitl [Howe]; · iexact Howe
        isplitl [Hseg]; · iexact Hseg
        isplitl [Hrow]; · iexact Hrow
        iexact Hout
      · rw [Phi0_castSucc V c t, Phi0_pos V c _ _ hz]
        iintro ⟨⟨⟨⟨Hacc, Hcnt⟩, HR⟩, Hg⟩, Howe, ⟨%ds, Hseg⟩, ⟨%dr, Hrow⟩, Hout⟩
        iapply (run0_A c Set.univ (grid0.coords t) _ _ _ _ _ _ _ _ _ _ hcF hcL (iblk0 V c 0 t) (iblk0 V c 1 t) _)
        isplitl [Hseg]; · iexact Hseg
        isplitl [Hrow]; · iexact Hrow
        isplitl [Hacc]; · iexists _; iexact Hacc
        isplitl [Hcnt]; · iexists _; iexact Hcnt
        iintro ⟨Hseg, Hrow, Hacc, Hcnt⟩
        isplitl [Hacc Hcnt HR Hg]
        · isplitr [Hg]
          · isplitr [HR]
            · isplitl [Hacc]; · iexact Hacc
              iexact Hcnt
            iexact HR
          iexact Hg
        isplitl [Howe]; · iexact Howe
        isplitl [Hseg]; · iexact Hseg
        isplitl [Hrow]; · iexact Hrow
        iexact Hout
    ·
      have hz : t.val ≠ 0 := fun e => hF (by rw [e])
      have hcF : ¬cond0_0 (grid0.coords t) := fun h => hF ((hcond0_0 t).mp h)
      rw [sc0_step V c t hF]; dsimp only
      rw [Phi0_castSucc V c t, Phi0_pos V c _ _ hz]
      iintro ⟨⟨⟨⟨Hacc, Hcnt⟩, HR⟩, Hg⟩, Howe, ⟨%ds, Hseg⟩, ⟨%dr, Hrow⟩, Hout⟩
      iapply (run0_B c Set.univ (grid0.coords t) _ _ _ _ _ _ _ _ _ _ hcF hcL (iblk0 V c 0 t) (iblk0 V c 1 t) _ _ _)
      isplitl [Hseg]; · iexact Hseg
      isplitl [Hrow]; · iexact Hrow
      isplitl [Hacc]; · iexact Hacc
      isplitl [Hcnt]; · iexact Hcnt
      iintro ⟨Hseg, Hrow, Hacc, Hcnt⟩
      isplitl [Hacc Hcnt HR Hg]
      · isplitr [Hg]
        · isplitr [HR]
          · isplitl [Hacc]; · iexact Hacc
            iexact Hcnt
          iexact HR
        iexact Hg
      isplitl [Howe]; · iexact Howe
      isplitl [Hseg]; · iexact Hseg
      isplitl [Hrow]; · iexact Hrow
      iexact Hout

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨⟨Hacc, Hcnt⟩, HR⟩, Hg⟩
  isplitr [Hg]
  · isplitr [HR]
    · isplitl [Hacc]
      · iexists _; iexact Hacc
      iexists _; iexact Hcnt
    iexact HR
  iexact Hg

theorem hout0 (c : Dev nD) : (dat0 V c).Φ (Fin.last cfg0.N) ⊢ Pipeline.ΦA spec0 c :=
  Phi0_out V c _ (by rw [Fin.val_last]; have : cfg0.N = 512 := (by decide); omega)

end Cert.KernelIdeal.Hand

end
-- ==== Proof.HKernelIdeal.Reg1.lean ====
import proofs.«401583_j19292993094061_1_alg».proof.Proof.HKernelIdeal.Reg0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t :=
  (dat.before_fetched 0 t (fetch1_0 t) d).trans (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t :=
  (dat.before_fetched 1 t (fetch1_1 t) d).trans (by unfold Dat.fetched Dat.blockOf iblk1; rw [hA]; try rfl)

abbrev cond1_0 (i : grid1.Coords) : Prop :=
  (Scalar.cmpi .ne (Scalar.extui (Scalar.cmpi .eq (BitVec.ofNat 0x20 (i 1).val) 0#0x20)) 0#0x20) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem liveAt1_2 : ∀ t : Fin cfg1.N, cond1_1 (grid1.coords t) → cfg1.idle 2 (grid1.coords t) = false := by decide +kernel
theorem noFlush1_2 (t : Fin cfg1.N) (h : ¬t.val % 16 = 15) : (cfg1.win 2).flush t = false :=
  Bool.eq_false_iff.mpr fun hf => h ((flush1_2 t).mp hf)

/-- The point of the first call's grid with `i`'s outer coordinate and inner coordinate `k`. -/
def toG0' (i : grid1.Coords) (k : Fin 32) : grid0.Coords := fun a => match a with
  | ⟨0, _⟩ => ⟨(i 0).val, (i 0).isLt⟩
  | ⟨1, _⟩ => k

theorem cond_at : ∀ i : grid1.Coords, (cond0_0 (toG0' i 0) ∧ ¬cond0_1 (toG0' i 0)) ∧ (¬cond0_0 (toG0' i 1) ∧ ¬cond0_1 (toG0' i 1))
    ∧ (¬cond0_0 (toG0' i 31) ∧ cond0_1 (toG0' i 31)) := by decide +kernel

/-- The two calls run one body: it reads the inner coordinate only through its two conditions. -/
theorem cc1_eq (i : grid1.Coords) (k : Fin 32) (h0 : cond1_0 i ↔ cond0_0 (toG0' i k)) (h1 : cond1_1 i ↔ cond0_1 (toG0' i k)) :
    cc1__segment_mean_kernel (F := F) i = cc0__segment_mean_kernel (toG0' i k) := by
  rw [cc1__segment_mean_kernel_eq_skeleton, cc0__segment_mean_kernel_eq_skeleton]
  unfold cc1__segment_mean_kernel_skel cc0__segment_mean_kernel_skel
  simp only [propext h0, propext h1]
  rfl

def sc1 (c : Dev nD) : (n : ℕ) → n < cfg1.N → Vec F S1024x64 .f32 × Vec F S1024x1 .f32
  | 0, hn =>
    (k1_pay4 (grid1.coords ⟨0, hn⟩) (iblk1 V c 0 ⟨0, hn⟩) (iblk1 V c 1 ⟨0, hn⟩) k1_pay1,
      k1_pay5 (grid1.coords ⟨0, hn⟩) (iblk1 V c 0 ⟨0, hn⟩) (iblk1 V c 1 ⟨0, hn⟩) k1_pay2)
  | n + 1, hn =>
    if (n + 1) % 16 = 0 then
      (k1_pay4 (grid1.coords ⟨n + 1, hn⟩) (iblk1 V c 0 ⟨n + 1, hn⟩) (iblk1 V c 1 ⟨n + 1, hn⟩) k1_pay1,
        k1_pay5 (grid1.coords ⟨n + 1, hn⟩) (iblk1 V c 0 ⟨n + 1, hn⟩) (iblk1 V c 1 ⟨n + 1, hn⟩) k1_pay2)
    else
      (k1_pay4 (grid1.coords ⟨n + 1, hn⟩) (iblk1 V c 0 ⟨n + 1, hn⟩) (iblk1 V c 1 ⟨n + 1, hn⟩) (sc1 c n (Nat.lt_of_succ_lt hn)).1,
        k1_pay5 (grid1.coords ⟨n + 1, hn⟩) (iblk1 V c 0 ⟨n + 1, hn⟩) (iblk1 V c 1 ⟨n + 1, hn⟩) (sc1 c n (Nat.lt_of_succ_lt hn)).2)

theorem sc1_reset (c : Dev nD) (t : Fin cfg1.N) (h : t.val % 16 = 0) :
    sc1 V c t.val t.isLt
      = (k1_pay4 (grid1.coords t) (iblk1 V c 0 t) (iblk1 V c 1 t) k1_pay1,
          k1_pay5 (grid1.coords t) (iblk1 V c 0 t) (iblk1 V c 1 t) k1_pay2) := by
  obtain ⟨n, hn⟩ := t
  cases n with
  | zero => rfl
  | succ n => exact (if_pos h).trans rfl

theorem sc1_step (c : Dev nD) (t : Fin cfg1.N) (h : t.val % 16 ≠ 0) :
    sc1 V c t.val t.isLt
      = (k1_pay4 (grid1.coords t) (iblk1 V c 0 t) (iblk1 V c 1 t) (sc1 V c (t.val - 1) (Nat.lt_of_le_of_lt (Nat.sub_le _ _) t.isLt)).1,
          k1_pay5 (grid1.coords t) (iblk1 V c 0 t) (iblk1 V c 1 t) (sc1 V c (t.val - 1) (Nat.lt_of_le_of_lt (Nat.sub_le _ _) t.isLt)).2) := by
  obtain ⟨n, hn⟩ := t
  cases n with
  | zero => exact absurd (Nat.zero_mod _) h
  | succ n => exact (if_neg h).trans rfl

def out1_2 (c : Dev nD) (t : Fin cfg1.N) : Vec F S1024x64 .f32 :=
  k1_pay6 (sc1 V c t.val t.isLt).1 (sc1 V c t.val t.isLt).2

abbrev scM1_0 : Memref sig .tc .vmem S1024x64 .f32 := Memref.whole cc1_scratch0
abbrev scM1_1 : Memref sig .tc .vmem S1024x1 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

def Phi1 (c : Dev nD) : (n : ℕ) → n ≤ cfg1.N → sProp 𝕄
  | 0, _ => Pipeline.ΦA spec1 c
  | n + 1, hn =>
    iprop(iprop(iprop(owns (c : Thread nD τ) scM1_0 fullShare (sc1 V c n hn).1 ∗ owns (c : Thread nD τ) scM1_1 fullShare (sc1 V c n hn).2)
      ∗ Pipeline.scopedRestBut (Ix := Unit) (Name := ℕ) (U := UR sig nD τ) (Lvl := ℕ) (Val := Elt F) spec1 c [cc1_scratch0, cc1_scratch1])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn
      = iprop(iprop(iprop(owns (c : Thread nD τ) scM1_0 fullShare (sc1 V c n hn).1 ∗ owns (c : Thread nD τ) scM1_1 fullShare (sc1 V c n hn).2)
        ∗ Pipeline.scopedRestBut (Ix := Unit) (Name := ℕ) (U := UR sig nD τ) (Lvl := ℕ) (Val := Elt F) spec1 c [cc1_scratch0, cc1_scratch1])
        ∗ (∃ r, prngReg c r)) := rfl

theorem Phi1_pos (c : Dev nD) (n : ℕ) (h : n ≤ cfg1.N) (hz : n ≠ 0) :
    Phi1 V c n h
      = iprop(iprop(iprop(owns (c : Thread nD τ) scM1_0 fullShare (sc1 V c (n - 1) (by omega)).1 ∗ owns (c : Thread nD τ) scM1_1 fullShare (sc1 V c (n - 1) (by omega)).2)
        ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

theorem after1_2_last (c : Dev nD) (t : Fin cfg1.N) (h : t.val % 16 = 15) : (dat1 V c).after 2 t = out1_2 V c t :=
  after1_2 V c t

theorem before1_0 (c : Dev nD) (t : Fin cfg1.N) (d) : (dat1 V c).before 0 t d = iblk1 V c 0 t :=
  before1_0_of V (dat1 V c) (A_eq1 V c 0) t d
theorem before1_1 (c : Dev nD) (t : Fin cfg1.N) (d) : (dat1 V c).before 1 t d = iblk1 V c 1 t :=
  before1_1_of V (dat1 V c) (A_eq1 V c 1) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 256 := lt_of_lt_of_eq t.isLt (by decide : cfg1.N = 256)
  by_cases hL : t.val % 16 = 15
  ·
    have hF : t.val % 16 ≠ 0 := by omega
    have hz : t.val ≠ 0 := by omega
    have hcF : ¬cond1_0 (grid1.coords t) := fun h => hF ((hcond1_0 t).mp h)
    have hcL : cond1_1 (grid1.coords t) := (hcond1_1 t).mpr hL
    rw [show (dat1 V c).leavesExact 2 t = owns (c : Thread nD τ) (st1_2 t) fullShare ((dat1 V c).after 2 t) from by
      unfold Dat.leavesExact; rw [liveAt1_2 t hcL], after1_2]
    unfold out1_2
    rw [sc1_step V c t hF]; dsimp only
    rw [Phi1_castSucc V c t, Phi1_pos V c _ _ hz]
    iintro ⟨⟨⟨⟨Hacc, Hcnt⟩, HR⟩, Hg⟩, Howe, ⟨%ds, Hseg⟩, ⟨%dr, Hrow⟩, ⟨%dou, Hout⟩⟩
    rw [cc1_eq (grid1.coords t) 31 (iff_of_false hcF (cond_at _).2.2.1) (iff_of_true hcL (cond_at _).2.2.2)]
    iapply (run0_C c Set.univ (toG0' (grid1.coords t) 31) _ _ _ _ _ _ _ _ _ _ (cond_at _).2.2.1 (cond_at _).2.2.2 (iblk1 V c 0 t) (iblk1 V c 1 t) _ _ _)
    isplitl [Hseg]; · iexact Hseg
    isplitl [Hrow]; · iexact Hrow
    isplitl [Hout]; · iexists _; iexact Hout
    isplitl [Hacc]; · iexact Hacc
    isplitl [Hcnt]; · iexact Hcnt
    iintro ⟨Hseg, Hrow, Hout, Hacc, Hcnt⟩
    isplitl [Hacc Hcnt HR Hg]
    · isplitr [Hg]
      · isplitr [HR]
        · isplitl [Hacc]; · iexact Hacc
          iexact Hcnt
        iexact HR
      iexact Hg
    isplitl [Howe]; · iexact Howe
    isplitl [Hseg]; · iexact Hseg
    isplitl [Hrow]; · iexact Hrow
    iexact Hout
  · have hcL : ¬cond1_1 (grid1.coords t) := fun h => hL ((hcond1_1 t).mp h)
    rw [Dat.leavesExact_idle (dat1 V c) 2 t (idleAt1_2 t hcL) (noFlush1_2 t hL)]
    by_cases hF : t.val % 16 = 0
    ·
      have hcF : cond1_0 (grid1.coords t) := (hcond1_0 t).mpr hF
      rw [sc1_reset V c t hF]; dsimp only
      by_cases hz : t.val = 0
      · rw [Phi1_castSucc V c t, Phi1_zero V c _ _ hz, PhiA1_eq]
        iintro ⟨⟨⟨⟨Hacc, Hcnt⟩, HR⟩, Hg⟩, Howe, ⟨%ds, Hseg⟩, ⟨%dr, Hrow⟩, Hout⟩
        rw [cc1_eq (grid1.coords t) 0 (iff_of_true hcF (cond_at _).1.1) (iff_of_false hcL (cond_at _).1.2)]
        iapply (run0_A c Set.univ (toG0' (grid1.coords t) 0) _ _ _ _ _ _ _ _ _ _ (cond_at _).1.1 (cond_at _).1.2 (iblk1 V c 0 t) (iblk1 V c 1 t) _)
        isplitl [Hseg]; · iexact Hseg
        isplitl [Hrow]; · iexact Hrow
        isplitl [Hacc]; · iexact Hacc
        isplitl [Hcnt]; · iexact Hcnt
        iintro ⟨Hseg, Hrow, Hacc, Hcnt⟩
        isplitl [Hacc Hcnt HR Hg]
        · isplitr [Hg]
          · isplitr [HR]
            · isplitl [Hacc]; · iexact Hacc
              iexact Hcnt
            iexact HR
          iexact Hg
        isplitl [Howe]; · iexact Howe
        isplitl [Hseg]; · iexact Hseg
        isplitl [Hrow]; · iexact Hrow
        iexact Hout
      · rw [Phi1_castSucc V c t, Phi1_pos V c _ _ hz]
        iintro ⟨⟨⟨⟨Hacc, Hcnt⟩, HR⟩, Hg⟩, Howe, ⟨%ds, Hseg⟩, ⟨%dr, Hrow⟩, Hout⟩
        rw [cc1_eq (grid1.coords t) 0 (iff_of_true hcF (cond_at _).1.1) (iff_of_false hcL (cond_at _).1.2)]
        iapply (run0_A c Set.univ (toG0' (grid1.coords t) 0) _ _ _ _ _ _ _ _ _ _ (cond_at _).1.1 (cond_at _).1.2 (iblk1 V c 0 t) (iblk1 V c 1 t) _)
        isplitl [Hseg]; · iexact Hseg
        isplitl [Hrow]; · iexact Hrow
        isplitl [Hacc]; · iexists _; iexact Hacc
        isplitl [Hcnt]; · iexists _; iexact Hcnt
        iintro ⟨Hseg, Hrow, Hacc, Hcnt⟩
        isplitl [Hacc Hcnt HR Hg]
        · isplitr [Hg]
          · isplitr [HR]
            · isplitl [Hacc]; · iexact Hacc
              iexact Hcnt
            iexact HR
          iexact Hg
        isplitl [Howe]; · iexact Howe
        isplitl [Hseg]; · iexact Hseg
        isplitl [Hrow]; · iexact Hrow
        iexact Hout
    ·
      have hz : t.val ≠ 0 := fun e => hF (by rw [e])
      have hcF : ¬cond1_0 (grid1.coords t) := fun h => hF ((hcond1_0 t).mp h)
      rw [sc1_step V c t hF]; dsimp only
      rw [Phi1_castSucc V c t, Phi1_pos V c _ _ hz]
      iintro ⟨⟨⟨⟨Hacc, Hcnt⟩, HR⟩, Hg⟩, Howe, ⟨%ds, Hseg⟩, ⟨%dr, Hrow⟩, Hout⟩
      rw [cc1_eq (grid1.coords t) 1 (iff_of_false hcF (cond_at _).2.1.1) (iff_of_false hcL (cond_at _).2.1.2)]
      iapply (run0_B c Set.univ (toG0' (grid1.coords t) 1) _ _ _ _ _ _ _ _ _ _ (cond_at _).2.1.1 (cond_at _).2.1.2 (iblk1 V c 0 t) (iblk1 V c 1 t) _ _ _)
      isplitl [Hseg]; · iexact Hseg
      isplitl [Hrow]; · iexact Hrow
      isplitl [Hacc]; · iexact Hacc
      isplitl [Hcnt]; · iexact Hcnt
      iintro ⟨Hseg, Hrow, Hacc, Hcnt⟩
      isplitl [Hacc Hcnt HR Hg]
      · isplitr [Hg]
        · isplitr [HR]
          · isplitl [Hacc]; · iexact Hacc
            iexact Hcnt
          iexact HR
        iexact Hg
      isplitl [Howe]; · iexact Howe
      isplitl [Hseg]; · iexact Hseg
      isplitl [Hrow]; · iexact Hrow
      iexact Hout

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨Hacc, Hcnt⟩, HR⟩, Hg⟩
  isplitr [Hg]
  · isplitr [HR]
    · isplitl [Hacc]
      · iexists _; iexact Hacc
      iexists _; iexact Hcnt
    iexact HR
  iexact Hg

theorem hout1 (c : Dev nD) : (dat1 V c).Φ (Fin.last cfg1.N) ⊢ Pipeline.ΦA spec1 c :=
  Phi1_out V c _ (by rw [Fin.val_last]; have : cfg1.N = 256 := (by decide); omega)

end Cert.KernelIdeal.Hand

end
-- ==== Proof.HKernelIdeal.Reg2.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x64 := Rect.unit (s := S2048x64) ![0, 0] S2048x64.size inb_S2048x64_S2048x64_0_0
abbrev r2_1 : Rect S128x256 := Rect.unit (s := S128x256) ![0, 0] S128x256.size inb_S128x256_S128x256_0_0
abbrev r2_2 : Rect S256 := Rect.unit (s := S256) ![0] S256.size inb_S256_S256_0
abbrev r2_3 : Rect S256x64 := Rect.unit (s := S256x64) ![0, 0] S256x64.size inb_S256x64_S256x64_0_0
abbrev r2_4 : Rect S64 := Rect.unit (s := S64) ![0] S64.size inb_S64_S64_0

def out2_6 (x0 x1 : Vec F S2048x64 .f32) (x2 : Vec F S128x256 .f32) (x3 : Vec F S256 .f32) (x4 : Vec F S256x64 .f32) (x5 : Vec F S64 .f32) :
    Vec F S2048x64 .f32 :=
  View.canon [⟨r2_0, k2_pay3 (View.ld x0 r2_0) (View.ld x1 r2_0) (View.ld x2 r2_1) (View.ld x3 r2_2) (View.ld x4 r2_3) (View.ld x5 r2_4)⟩]

def out2_7 (x1 : Vec F S2048x64 .f32) : Vec F S2048x64 .f32 :=
  View.canon [⟨r2_0, k2_pay1 (k2_pay2 (View.ld x1 r2_0)) (k2_pay4 (View.ld x1 r2_0))⟩]

theorem cover2 (p0 : Vec F S2048x64 .f32) (y : S2048x64.Idx) :
    ∃ pc ∈ ([⟨r2_0, p0⟩] : List (View.Piece (Elt F) S2048x64 .f32)), y ∈ pc.1.set :=
  View.cover_of_tiled [⟨r2_0, p0⟩] S2048x64.size (by rfl) y

set_option maxHeartbeats 4000000 in

theorem sound_kernel2 (c : Dev nD) (E : Set ℕ) (i : grid2.Coords)
    (arg1 : Memref sig .tc .vmem S2048x64 .f32) (harg1 : arg1.IsWhole) (arg2 : Memref sig .tc .vmem S2048x64 .f32) (harg2 : arg2.IsWhole)
    (arg3 : Memref sig .tc .vmem S128x256 .f32) (harg3 : arg3.IsWhole) (arg4 : Memref sig .tc .vmem S256 .f32) (harg4 : arg4.IsWhole)
    (arg5 : Memref sig .tc .vmem S256x64 .f32) (harg5 : arg5.IsWhole) (arg6 : Memref sig .tc .vmem S64 .f32) (harg6 : arg6.IsWhole)
    (arg7 : Memref sig .tc .vmem S2048x64 .f32) (harg7 : arg7.IsWhole) (arg8 : Memref sig .tc .vmem S2048x64 .f32) (harg8 : arg8.IsWhole)
    (x0 x1 : Vec F S2048x64 .f32) (x2 : Vec F S128x256 .f32) (x3 : Vec F S256 .f32) (x4 : Vec F S256x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x1)) -∗ K ⟨⟩))
      ⊢ wp frame (wpE (defs₀ (F := F)) Variants.none c none) E
          (cc2__user_tower_kernel i arg1 harg1 arg2 harg2 arg3 harg3 arg4 harg4 arg5 harg5 arg6 harg6 arg7 harg7 arg8 harg8) K := by
  simp only [cc2__user_tower_kernel_eq_skeleton]; unfold cc2__user_tower_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 1 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;>
    exact fun d => ((dat2 V c).before_in_eq_fetched _ rfl (fun _ => rfl) (fun _ _ _ => rfl)
      (fun t => by dsimp only [dat2]; unfold Dat.blockOf iblk2; try rfl) t d).trans
      (by unfold Dat.fetched Dat.blockOf iblk2; dsimp only [dat2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2.1, (before2 V c t).2.2.1, (before2 V c t).2.2.2.1, (before2 V c t).2.2.2.2.1, (before2 V c t).2.2.2.2.2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.HKernelIdeal.Reg3.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2048x64 := Rect.unit (s := S2048x64) ![0, 0] S2048x64.size inb_S2048x64_S2048x64_0_0
abbrev r3_1 : Rect S192x256 := Rect.unit (s := S192x256) ![0, 0] S192x256.size inb_S192x256_S192x256_0_0
abbrev r3_2 : Rect S256 := Rect.unit (s := S256) ![0] S256.size inb_S256_S256_0
abbrev r3_3 : Rect S256x64 := Rect.unit (s := S256x64) ![0, 0] S256x64.size inb_S256x64_S256x64_0_0
abbrev r3_4 : Rect S64 := Rect.unit (s := S64) ![0] S64.size inb_S64_S64_0

def out3_7 (x0 x1 x2 : Vec F S2048x64 .f32) (x3 : Vec F S192x256 .f32) (x4 : Vec F S256 .f32) (x5 : Vec F S256x64 .f32) (x6 : Vec F S64 .f32) : Vec F S2048x64 .f32 :=
  View.canon [⟨r3_0, k3_pay11 (k3_pay8 (View.ld x0 r3_0) (View.ld x1 r3_0) (View.ld x2 r3_0) (View.ld x3 r3_1) (View.ld x4 r3_2) (View.ld x5 r3_3) (View.ld x6 r3_4))⟩]

def out3_8 (x0 x1 x2 : Vec F S2048x64 .f32) (x3 : Vec F S192x256 .f32) (x4 : Vec F S256 .f32) (x5 : Vec F S256x64 .f32) (x6 : Vec F S64 .f32) : Vec F S2048x64 .f32 :=
  View.canon [⟨r3_0, k3_pay1 (k3_pay4 (View.ld x2 r3_0)) (k3_pay14 (k3_pay4 (View.ld x2 r3_0)))⟩]

def out3_9 (x0 x1 x2 : Vec F S2048x64 .f32) (x3 : Vec F S192x256 .f32) (x4 : Vec F S256 .f32) (x5 : Vec F S256x64 .f32) (x6 : Vec F S64 .f32) : Vec F S2048x64 .f32 :=
  View.canon [⟨r3_0, k3_pay12 (k3_pay9 (View.ld x0 r3_0) (View.ld x2 r3_0) (View.ld x3 r3_1) (View.ld x4 r3_2) (View.ld x5 r3_3) (View.ld x6 r3_4))⟩]

def out3_10 (x0 x1 x2 : Vec F S2048x64 .f32) (x3 : Vec F S192x256 .f32) (x4 : Vec F S256 .f32) (x5 : Vec F S256x64 .f32) (x6 : Vec F S64 .f32) : Vec F S2048x64 .f32 :=
  View.canon [⟨r3_0, k3_pay13 (k3_pay6 (View.ld x3 r3_1)) (View.ld x4 r3_2) (k3_pay7 (View.ld x5 r3_3)) (View.ld x6 r3_4) (k3_pay10 (View.ld x1 r3_0) (View.ld x2 r3_0))⟩]

theorem cover3_7 (p0 : Vec F S2048x64 .f32) (y : S2048x64.Idx) :
    ∃ pc ∈ ([⟨r3_0, p0⟩] : List (View.Piece (Elt F) S2048x64 .f32)), y ∈ pc.1.set :=
  View.cover_of_tiled [⟨r3_0, p0⟩] S2048x64.size (by rfl) y

theorem cover3_8 (p0 : Vec F S2048x64 .f32) (y : S2048x64.Idx) :
    ∃ pc ∈ ([⟨r3_0, p0⟩] : List (View.Piece (Elt F) S2048x64 .f32)), y ∈ pc.1.set := cover3_7 p0 y

theorem cover3_9 (p0 : Vec F S2048x64 .f32) (y : S2048x64.Idx) :
    ∃ pc ∈ ([⟨r3_0, p0⟩] : List (View.Piece (Elt F) S2048x64 .f32)), y ∈ pc.1.set := cover3_7 p0 y

theorem cover3_10 (p0 : Vec F S2048x64 .f32) (y : S2048x64.Idx) :
    ∃ pc ∈ ([⟨r3_0, p0⟩] : List (View.Piece (Elt F) S2048x64 .f32)), y ∈ pc.1.set := cover3_7 p0 y

set_option maxHeartbeats 1000000 in

theorem sound_kernel3 (c : Dev nD) (E : Set ℕ) (i : grid3.Coords)
    (arg1 : Memref sig .tc .vmem S2048x64 .f32) (harg1 : arg1.IsWhole) (arg2 : Memref sig .tc .vmem S2048x64 .f32) (harg2 : arg2.IsWhole)
    (arg3 : Memref sig .tc .vmem S2048x64 .f32) (harg3 : arg3.IsWhole) (arg4 : Memref sig .tc .vmem S192x256 .f32) (harg4 : arg4.IsWhole)
    (arg5 : Memref sig .tc .vmem S256 .f32) (harg5 : arg5.IsWhole) (arg6 : Memref sig .tc .vmem S256x64 .f32) (harg6 : arg6.IsWhole)
    (arg7 : Memref sig .tc .vmem S64 .f32) (harg7 : arg7.IsWhole) (arg8 : Memref sig .tc .vmem S2048x64 .f32) (harg8 : arg8.IsWhole)
    (arg9 : Memref sig .tc .vmem S2048x64 .f32) (harg9 : arg9.IsWhole) (arg10 : Memref sig .tc .vmem S2048x64 .f32) (harg10 : arg10.IsWhole)
    (arg11 : Memref sig .tc .vmem S2048x64 .f32) (harg11 : arg11.IsWhole)
    (x0 x1 x2 : Vec F S2048x64 .f32) (x3 : Vec F S192x256 .f32) (x4 : Vec F S256 .f32) (x5 : Vec F S256x64 .f32) (x6 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out3_7 x0 x1 x2 x3 x4 x5 x6)
            ∗ owns (c : Thread nD τ) arg9 fullShare (out3_8 x0 x1 x2 x3 x4 x5 x6)
            ∗ owns (c : Thread nD τ) arg10 fullShare (out3_9 x0 x1 x2 x3 x4 x5 x6)
            ∗ owns (c : Thread nD τ) arg11 fullShare (out3_10 x0 x1 x2 x3 x4 x5 x6)) -∗ K ⟨⟩))
      ⊢ wp frame (wpE (defs₀ (F := F)) Variants.none c none) E
          (cc3__item_tower_kernel i arg1 harg1 arg2 harg2 arg3 harg3 arg4 harg4 arg5 harg5 arg6 harg6 arg7 harg7 arg8 harg8 arg9 harg9 arg10 harg10 arg11 harg11) K := by
  simp only [cc3__item_tower_kernel_eq_skeleton]; unfold cc3__item_tower_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk

  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6

  isplitl [H7]
  · iexists _; isplitr
    swap; · iexact H7
    ipureintro
    exact View.read_writes_eq_canon _ _ _ (cover3_7 _)
  isplitl [H8]
  · iexists _; isplitr
    swap; · iexact H8
    ipureintro
    exact View.read_writes_eq_canon _ _ _ (cover3_8 _)
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
    | ⟨9, _⟩ => out3_9 (iblk3 V c 0 t) (iblk3 V c 1 t) (iblk3 V c 2 t) (iblk3 V c 3 t) (iblk3 V c 4 t) (iblk3 V c 5 t) (iblk3 V c 6 t)
    | ⟨10, _⟩ => out3_10 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) := by dsimp only [dat3]

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) ∧ (∀ d, (dat3 V c).before 5 t d = iblk3 V c 5 t)
    ∧ (∀ d, (dat3 V c).before 6 t d = iblk3 V c 6 t) := by
  refine ⟨?_, ?_, ?_, ?_, ?_, ?_, ?_⟩ <;>
    exact fun d => ((dat3 V c).before_in_eq_fetched _ rfl (fun _ => rfl) (fun _ _ _ => rfl)
      (fun t => by dsimp only [dat3]; unfold Dat.blockOf iblk3; try rfl) t d).trans
      (by unfold Dat.fetched Dat.blockOf iblk3; dsimp only [dat3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2.1, (before3 V c t).2.2.2.1, (before3 V c t).2.2.2.2.1, (before3 V c t).2.2.2.2.2.1, (before3 V c t).2.2.2.2.2.2]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.HKernelIdeal.Run.lean ====
import proofs.«401583_j19292993094061_1_alg».proof.Proof.HKernelIdeal.Reg0
import proofs.«401583_j19292993094061_1_alg».proof.Proof.HKernelIdeal.Reg1
import proofs.«401583_j19292993094061_1_alg».proof.Proof.HKernelIdeal.Reg2
import proofs.«401583_j19292993094061_1_alg».proof.Proof.HKernelIdeal.Reg3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

theorem not_image {α β : Type} [Fintype α] [DecidableEq β] {f : α → β} {b : β} (hb : b ∉ Finset.univ.image f) (w : α) : f w ≠ b :=
  fun e => hb (Finset.mem_image.mpr ⟨w, Finset.mem_univ _, e⟩)

-- A kernel region as a step of the run: only its own arrays change, from the contents `Wi` to `Wo`.
set_option backward.isDefEq.respectTransparency.types false in
def mkReg (p : Fin 4) (lf : Pipeline.LaunchFacts (nD := nD) (τ := τ) cfgs p) (Wi Wo : Dev nD → Valuation τ sig (Elt F))
    (hbody : ∀ c, Pipeline.BodyObligationLoose (pdats m ρ p c) defs₀ 𝒱₀ () Set.univ)
    (howed : ∀ (c : Dev nD) (t : Fin ((Pipeline.pin (pcfgs (F := F)) adm p).N + 1)), (pdats m ρ p c).owed t = 0)
    (hrec : ∀ c x, x ∈ (pdats m ρ p c).recorded 0)
    (hq : ∀ c (w : Fin (Pipeline.pin (pcfgs (F := F)) adm p).W), (pdats m ρ p c).q w = fullShare)
    (hA : ∀ c (w : Fin (Pipeline.pin (pcfgs (F := F)) adm p).W),
      (pdats m ρ p c).A w = Wi c (Proc.devRef .tc (Pipeline.arrRef (Pipeline.pin (pcfgs (F := F)) adm p).spec w)))
    (hF : ∀ c (w : Fin (Pipeline.pin (pcfgs (F := F)) adm p).W),
      (pdats m ρ p c).arrAt w (Pipeline.pin (pcfgs (F := F)) adm p).N = Wo c (Proc.devRef .tc (Pipeline.arrRef (Pipeline.pin (pcfgs (F := F)) adm p).spec w)))
    (hne : ∀ c (b : Ref sig .tc), (∀ w, Pipeline.arrRef (Pipeline.pin (pcfgs (F := F)) adm p).spec w ≠ b) →
      Wo c (Proc.devRef .tc b) = Wi c (Proc.devRef .tc b))
    (hΦi : ∀ c, Pipeline.ΦA (Pipeline.pin (pcfgs (F := F)) adm p).spec c ⊢ (pdats m ρ p c).Φ 0)
    (hΦo : ∀ c, (pdats m ρ p c).Φ (Fin.last (Pipeline.pin (pcfgs (F := F)) adm p).N) ⊢ Pipeline.ΦA (Pipeline.pin (pcfgs (F := F)) adm p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed c 0]; iexact HO
    isplitl [Hp]; · iexact Hp
    iexact Hrest
  hin c := by
    refine (?_ : _ ⊢ Pipeline.ΦA (Pipeline.pin (pcfgs (F := F)) adm p).spec c).trans (hΦi c)
    unfold Pipeline.ΦA
    iintro ⟨Hp, -, Hr⟩
    isplitl [Hr]; · iexact Hr
    iexact Hp
  hout c := by
    rw [Pipeline.ownSems0_none]
    refine (hΦo c).trans (?_ : Pipeline.ΦA (Pipeline.pin (pcfgs (F := F)) adm p).spec c ⊢ _)
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) adm p).N) (hF c)
      fun b hb => hne c b (not_image hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c (Fin.last _)]; iexact HO

abbrev reg0 := mkReg m ρ 0 launch0 (W1 m ρ) (W2 m ρ) (fun c => (body_obligation0 (V1 m ρ) c).loose) (fun _ _ => rfl) (fun _ _ => trivial) (fun _ _ => rfl)
  (fun _ _ => rfl) (fun c w => (W2_arr m ρ c w).symm) (W2_of_ne m ρ) (hin0 (V1 m ρ)) (hout0 (V1 m ρ))
abbrev reg1 := mkReg m ρ 1 launch1 (W2 m ρ) (W3 m ρ) (fun c => (body_obligation1 (V2 m ρ) c).loose) (fun _ _ => rfl) (fun _ _ => trivial) (fun _ _ => rfl)
  (fun _ _ => rfl) (fun c w => (W3_arr m ρ c w).symm) (W3_of_ne m ρ) (hin1 (V2 m ρ)) (hout1 (V2 m ρ))
abbrev reg2 := mkReg m ρ 2 launch2 (W3 m ρ) (W4 m ρ) (fun c => (body_obligation2 (V3 m ρ) c).loose) (fun _ _ => rfl) (fun _ _ => trivial) (fun _ _ => rfl)
  (fun _ _ => rfl) (fun c w => (W4_arr m ρ c w).symm) (W4_of_ne m ρ) (fun _ => .rfl) (fun _ => .rfl)
abbrev reg3 := mkReg m ρ 3 launch3 (W4 m ρ) (W5 m ρ) (fun c => (body_obligation3 (V4 m ρ) c).loose) (fun _ _ => rfl) (fun _ _ => trivial) (fun _ _ => rfl)
  (fun _ _ => rfl) (fun c w => (W5_arr m ρ c w).symm) (W5_of_ne m ρ) (fun _ => .rfl) (fun _ => .rfl)

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => by
      show iprop(_ ∗ _ ∗ _) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.HKernelIdeal.Keep.lean ====
import proofs.«401583_j19292993094061_1_alg».proof.Proof.HKernelIdeal.Run
import proofs.«401583_j19292993094061_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_launch (c : Dev nD) (b : Ref sig .tc) (h : b ∉ hostOps0_W) :
    W1 m ρ c (Proc.devRef .tc b) = m ((c : Thread nD τ).loc b) :=
  (Gen.V1_of m c b h).trans rfl

-- Between a region's entry and exit contents only the arrays of its output windows differ.
theorem W2_keep (c : Dev nD) (b : Ref sig .tc) (hb : b ≠ main_v37) :
    W2 m ρ c (Proc.devRef .tc b) = W1 m ρ c (Proc.devRef .tc b) := by
  by_cases h : ∃ w, Pipeline.arrRef spec0 w = b
  · obtain ⟨w, rfl⟩ := h
    fin_cases w <;> first
      | exact (W2_arr m ρ c _).trans (((dat0 (V1 m ρ) c).arrAt_in _ rfl _).trans (A_eq0 (V1 m ρ) c _))
      | exact absurd rfl hb
  · exact W2_of_ne m ρ c b fun w e => h ⟨w, e⟩

theorem W3_keep (c : Dev nD) (b : Ref sig .tc) (hb : b ≠ main_v38) :
    W3 m ρ c (Proc.devRef .tc b) = W2 m ρ c (Proc.devRef .tc b) := by
  by_cases h : ∃ w, Pipeline.arrRef spec1 w = b
  · obtain ⟨w, rfl⟩ := h
    fin_cases w <;> first
      | exact (W3_arr m ρ c _).trans (((dat1 (V2 m ρ) c).arrAt_in _ rfl _).trans (A_eq1 (V2 m ρ) c _))
      | exact absurd rfl hb
  · exact W3_of_ne m ρ c b fun w e => h ⟨w, e⟩

theorem W4_keep (c : Dev nD) (b : Ref sig .tc) (hb : b ≠ main_v39_0 ∧ b ≠ main_v39_1) :
    W4 m ρ c (Proc.devRef .tc b) = W3 m ρ c (Proc.devRef .tc b) := by
  by_cases h : ∃ w, Pipeline.arrRef spec2 w = b
  · obtain ⟨w, rfl⟩ := h
    fin_cases w <;> first
      | exact (W4_arr m ρ c _).trans (((dat2 (V3 m ρ) c).arrAt_in _ rfl _).trans (A_eq2 (V3 m ρ) c _))
      | exact absurd rfl hb.1
      | exact absurd rfl hb.2
  · exact W4_of_ne m ρ c b fun w e => h ⟨w, e⟩

theorem W5_keep (c : Dev nD) (b : Ref sig .tc) (hb : b ≠ main_v40_0 ∧ b ≠ main_v40_1 ∧ b ≠ main_v40_2 ∧ b ≠ main_v40_3) :
    W5 m ρ c (Proc.devRef .tc b) = W4 m ρ c (Proc.devRef .tc b) := by
  by_cases h : ∃ w, Pipeline.arrRef spec3 w = b
  · obtain ⟨w, rfl⟩ := h
    fin_cases w <;> first
      | exact (W5_arr m ρ c _).trans (((dat3 (V4 m ρ) c).arrAt_in _ rfl _).trans (A_eq3 (V4 m ρ) c _))
      | exact absurd rfl hb.1
      | exact absurd rfl hb.2.1
      | exact absurd rfl hb.2.2.1
      | exact absurd rfl hb.2.2.2
  · exact W5_of_ne m ρ c b fun w e => h ⟨w, e⟩

theorem W3_eq_W1 (c : Dev nD) (b : Ref sig .tc) (h : b ≠ main_v37 ∧ b ≠ main_v38) :
    W3 m ρ c (Proc.devRef .tc b) = W1 m ρ c (Proc.devRef .tc b) :=
  (W3_keep m ρ c b h.2).trans (W2_keep m ρ c b h.1)

theorem W4_eq_W1 (c : Dev nD) (b : Ref sig .tc) (h : (b ≠ main_v37 ∧ b ≠ main_v38) ∧ b ≠ main_v39_0 ∧ b ≠ main_v39_1) :
    W4 m ρ c (Proc.devRef .tc b) = W1 m ρ c (Proc.devRef .tc b) :=
  (W4_keep m ρ c b h.2).trans (W3_eq_W1 m ρ c b h.1)

theorem W5_eq_W1 (c : Dev nD) (b : Ref sig .tc) (h : ((b ≠ main_v37 ∧ b ≠ main_v38) ∧ b ≠ main_v39_0 ∧ b ≠ main_v39_1) ∧
    b ≠ main_v40_0 ∧ b ≠ main_v40_1 ∧ b ≠ main_v40_2 ∧ b ≠ main_v40_3) :
    W5 m ρ c (Proc.devRef .tc b) = W1 m ρ c (Proc.devRef .tc b) :=
  (W5_keep m ρ c b h.2).trans (W4_eq_W1 m ρ c b h.1)

abbrev kept (c : Dev nD) (μ : (ℓ : Loc nD τ sig) → Buf (Elt F) ℓ) (b : Ref sig .tc) : Prop :=
  μ ((c.tc : Thread nD τ).loc b) = m ((c.tc : Thread nD τ).loc b)

abbrev ArgsKept (c : Dev nD) (μ : (ℓ : Loc nD τ sig) → Buf (Elt F) ℓ) : Prop :=
  kept m c μ main_arg0 ∧ kept m c μ main_arg1 ∧ kept m c μ main_arg2 ∧ kept m c μ main_arg3 ∧ kept m c μ main_arg4 ∧ kept m c μ main_arg5 ∧ kept m c μ main_arg6 ∧ kept m c μ main_arg7 ∧ kept m c μ main_arg8 ∧ kept m c μ main_arg9 ∧ kept m c μ main_arg10 ∧ kept m c μ main_arg11 ∧ kept m c μ main_arg12 ∧ kept m c μ main_arg13 ∧ kept m c μ main_arg14 ∧ kept m c μ main_arg15 ∧ kept m c μ main_arg16 ∧ kept m c μ main_arg17 ∧ kept m c μ main_arg18

-- An unscoped buffer that neither the host stretch nor any region writes ends holding its launch contents.
theorem kept_end (c : Dev nD) (b : Ref sig .tc) {μ : (ℓ : Loc nD τ sig) → Buf (Elt F) ℓ}
    (hμ : ∀ b ∈ Pipeline.ucRefs τ sig, μ (((c : Thread nD τ)).1, b) = W5 m ρ c b)
    (h : ¬ (Proc.devRef .tc b : DevRef τ sig).isScoped ∧ b ∉ hostOps0_W ∧
      ((b ≠ main_v37 ∧ b ≠ main_v38) ∧ b ≠ main_v39_0 ∧ b ≠ main_v39_1) ∧
      b ≠ main_v40_0 ∧ b ≠ main_v40_1 ∧ b ≠ main_v40_2 ∧ b ≠ main_v40_3) : kept m c μ b :=
  (hμ _ (mem_uc b h.1)).trans ((W5_eq_W1 m ρ c b h.2.2).trans (W1_launch m ρ c b h.2.1))

theorem run_args : θ_run defs (onTc (τ := τ) (main (F := F))) ⟨m, fun _ => 0, ρ⟩ (fun r => ∀ c : Dev nD,
    (∀ b ∈ Pipeline.ucRefs τ sig, r.2.mem (((c : Thread nD τ)).1, b) = W5 m ρ c b) ∧ ArgsKept m c r.2.mem) :=
  (θ_run defs _ _).mono (fun r h c => ⟨h c, by
    unfold ArgsKept; and_intros <;> exact kept_end m ρ c _ (h c) (by decide)⟩) (run_all m ρ)

-- At any float instance: @main runs to the end without a fault and every argument ends as launched.
theorem frame_at : θ_run defs (onTc (τ := τ) (main (F := F))) ⟨m, fun _ => 0, ρ⟩
    (fun r => ∀ c : Dev nD, ArgsKept m c r.2.mem) :=
  (θ_run defs _ _).mono (fun _ h c => (h c).2) (run_args m ρ)

end Cert.KernelIdeal.Hand

end
-- ==== Proof.Val.Glue.lean ====
import proofs.«401583_j19292993094061_1_alg».proof.Proof.HKernelIdeal.Run
import proofs.«401583_j19292993094061_1_alg».proof.Proof.Gen.ReferenceIdeal.Read
import Idealize.ShloMosaic.Lib.StableHlo.Run

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

abbrev arg (c : Dev nD) (b : Ref sig .tc) : Buf (Elt Ideal) ((c.tc : Thread nD τ).loc b) := m ((c.tc : Thread nD τ).loc b)

set_option maxHeartbeats 8000000 in

theorem glue_v7 (c : Dev nD) : (W1 m ρ c (Proc.devRef .tc main_v7) : S131072x64.Idx → EReal)
    = Cert.ReferenceIdeal.Read.val_main_v6 (F := Ideal) (arg m c main_arg0) (arg m c main_arg14) := by
  show StableHlo.after (hostOps0 (F := Ideal)) (W0 m ρ c) (Proc.devRef .tc main_v7) = _
  after_results
  rfl

set_option maxHeartbeats 8000000 in

theorem glue_v14 (c : Dev nD) : (W1 m ρ c (Proc.devRef .tc main_v14) : S16384x64.Idx → EReal)
    = Cert.ReferenceIdeal.Read.val_main_v24 (F := Ideal) (arg m c main_arg3) (arg m c main_arg13) := by
  show StableHlo.after (hostOps0 (F := Ideal)) (W0 m ρ c) (Proc.devRef .tc main_v14) = _
  after_results
  rfl

set_option maxHeartbeats 8000000 in

theorem glue_v21 (c : Dev nD) : (W1 m ρ c (Proc.devRef .tc main_v21) : S16384x64.Idx → EReal)
    = Cert.ReferenceIdeal.Read.val_main_v57 (F := Ideal) (arg m c main_arg1) (arg m c main_arg16) := by
  show StableHlo.after (hostOps0 (F := Ideal)) (W0 m ρ c) (Proc.devRef .tc main_v21) = _
  after_results
  rfl

set_option maxHeartbeats 8000000 in

theorem glue_v29 (c : Dev nD) : (W1 m ρ c (Proc.devRef .tc main_v29) : S65536x64.Idx → EReal)
    = Cert.ReferenceIdeal.Read.val_main_v64 (F := Ideal) (arg m c main_arg2) (arg m c main_arg17) := by
  show StableHlo.after (hostOps0 (F := Ideal)) (W0 m ρ c) (Proc.devRef .tc main_v29) = _
  after_results
  rfl

set_option maxHeartbeats 8000000 in

theorem glue_v36 (c : Dev nD) : (W1 m ρ c (Proc.devRef .tc main_v36) : S16384x64.Idx → EReal)
    = Cert.ReferenceIdeal.Read.val_main_v82 (F := Ideal) (arg m c main_arg4) (arg m c main_arg16) := by
  show StableHlo.after (hostOps0 (F := Ideal)) (W0 m ρ c) (Proc.devRef .tc main_v36) = _
  after_results
  rfl

end Cert.Val

end
-- ==== Proof.Val.SegSum.lean ====
import Idealize.ShloMosaic.PureOps.Ideal
import Idealize.ShloMosaic.Lib.ValueIdx

noncomputable section

namespace Cert.SegSum

open Idealize.ShloMosaic Idealize.ShloMosaic.ValueIdx
open scoped BigOperators

theorem sum_range_blocks {β : Type*} [AddCommMonoid β] (K M : ℕ) (f : ℕ → β) :
    ∑ s ∈ Finset.range K, ∑ j ∈ Finset.range M, f (s * M + j) = ∑ J ∈ Finset.range (K * M), f J := by
  induction K with
  | zero => simp
  | succ K ih =>
    rw [Finset.sum_range_succ, ih, Nat.succ_mul, Finset.sum_range_add]

theorem sum_blocks_indicator (K M : ℕ) (c : ℕ → Prop) [DecidablePred c] (v : ℕ → EReal) :
    ∑ s ∈ Finset.range K, ∑ j : Fin M, (if c (s * M + j.val) then (1 : EReal) else 0) * v (s * M + j.val)
      = ∑ J ∈ (Finset.range (K * M)).filter c, v J := by
  have h1 : ∀ s, ∑ j : Fin M, (if c (s * M + j.val) then (1 : EReal) else 0) * v (s * M + j.val)
      = ∑ j ∈ Finset.range M, (if c (s * M + j) then v (s * M + j) else 0) := fun s => by
    rw [← Fin.sum_univ_eq_sum_range (fun j => if c (s * M + j) then v (s * M + j) else 0) M]
    refine Finset.sum_congr rfl fun j _ => ?_
    by_cases h : c (s * M + j.val)
    · rw [if_pos h, if_pos h, one_mul]
    · rw [if_neg h, if_neg h, zero_mul]
  rw [Finset.sum_congr rfl fun s _ => h1 s, sum_range_blocks K M (fun J => if c J then v J else 0),
    Finset.sum_filter]

def natSeg {M : ℕ} (x : (⟨1, ![M]⟩ : Shape).Idx → BitVec 32) (J : ℕ) : BitVec 32 :=
  if h : J < M then x (ix1 ⟨J, h⟩) else 0#32

def natRow {M C : ℕ} (X : (⟨2, ![M, C]⟩ : Shape).Idx → EReal) (q : Fin C) (J : ℕ) : EReal :=
  if h : J < M then X (ix2 ⟨J, h⟩ q) else 0

theorem natSeg_of_lt {M : ℕ} (x : (⟨1, ![M]⟩ : Shape).Idx → BitVec 32) (J : ℕ) (h : J < M) :
    natSeg x J = x (ix1 ⟨J, h⟩) := dif_pos h

theorem natRow_of_lt {M C : ℕ} (X : (⟨2, ![M, C]⟩ : Shape).Idx → EReal) (q : Fin C) (J : ℕ) (h : J < M) :
    natRow X q J = X (ix2 ⟨J, h⟩ q) := dif_pos h

theorem word_eq_iff_toInt (n : ℕ) (hn : n < 2 ^ 31) (w : BitVec 32) :
    BitVec.ofNat 32 n = w ↔ w.toInt = (n : ℤ) := by
  constructor
  · intro h
    subst h
    rw [BitVec.toInt_eq_toNat_cond, BitVec.toNat_ofNat]
    have : n % 2 ^ 32 = n := Nat.mod_eq_of_lt (by omega)
    rw [this]
    split <;> omega
  · intro h
    apply BitVec.eq_of_toNat_eq
    rw [BitVec.toNat_ofNat]
    have : n % 2 ^ 32 = n := Nat.mod_eq_of_lt (by omega)
    rw [this]
    rw [BitVec.toInt_eq_toNat_cond] at h
    have := w.isLt
    split at h <;> omega

abbrev rowScatter (G C M : Nat) (wf : ScatterDims.WF ⟨2, ![G, C]⟩ ⟨2, ![M, 1]⟩ ⟨2, ![M, C]⟩ [1] [0] [0] 1) :
    ScatterDims ⟨2, ![G, C]⟩ ⟨2, ![M, 1]⟩ ⟨2, ![M, C]⟩ where
  updateWindowDims := [1]
  insertedWindowDims := [0]
  scatterDimsToOperandDims := [0]
  indexVectorDim := 1
  wf := wf

section RowScatter

variable {G C M w : Nat} (wf : ScatterDims.WF ⟨2, ![G, C]⟩ ⟨2, ![M, 1]⟩ ⟨2, ![M, C]⟩ [1] [0] [0] 1)

theorem start0 (j : (⟨2, ![M, C]⟩ : Shape).Idx) (idx : IVec ⟨2, ![M, 1]⟩ w) :
    (rowScatter G C M wf).start j idx 0 = (idx (ix2 (j 0) ⟨0, Nat.one_pos⟩)).toInt := by
  unfold ScatterDims.start
  rw [dif_pos (show (0 : Fin 2) ∈ (rowScatter G C M wf).scatterDimsToOperandDims from List.mem_singleton.mpr rfl)]
  have hsi : (rowScatter G C M wf).siIdx j ⟨List.idxOf (0 : Fin 2) (rowScatter G C M wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

theorem start1 (j : (⟨2, ![M, C]⟩ : Shape).Idx) (idx : IVec ⟨2, ![M, 1]⟩ w) :
    (rowScatter G C M wf).start j idx 1 = 0 := by
  unfold ScatterDims.start
  rw [dif_neg (show ¬ (1 : Fin 2) ∈ (rowScatter G C M wf).scatterDimsToOperandDims by
    show ¬ (1 : Fin 2) ∈ [(0 : Fin 2)]; decide)]

theorem window0 (j : (⟨2, ![M, C]⟩ : Shape).Idx) :
    (rowScatter G C M wf).window j 0 = 0 := by
  unfold ScatterDims.window
  rw [dif_neg (show ¬ (0 : Fin 2) ∈ (rowScatter G C M wf).sKept by
    show ¬ (0 : Fin 2) ∈ (List.finRange 2).filter (· ∉ [(0 : Fin 2)]); decide)]

theorem window1 (j : (⟨2, ![M, C]⟩ : Shape).Idx) :
    (rowScatter G C M wf).window j 1 = (j 1).val := by
  unfold ScatterDims.window
  rw [dif_pos (show (1 : Fin 2) ∈ (rowScatter G C M wf).sKept by
    show (1 : Fin 2) ∈ (List.finRange 2).filter (· ∉ [(0 : Fin 2)]); decide)]
  rfl

theorem resultIdx_iff (J : Fin M) (b q : Fin C) (r : Fin G) (idx : IVec ⟨2, ![M, 1]⟩ w) :
    (rowScatter G C M wf).resultIdx? (ix2 J b) idx = some (ix2 r q)
      ↔ (idx (ix2 J ⟨0, Nat.one_pos⟩)).toInt = (r.val : ℤ) ∧ b = q := by
  have hs0 : (rowScatter G C M wf).start (ix2 J b) idx 0 = (idx (ix2 J ⟨0, Nat.one_pos⟩)).toInt := start0 wf (ix2 J b) idx
  have hs1 := start1 wf (ix2 J b) idx
  have hw0 := window0 wf (ix2 J b)
  have hw1 : (rowScatter G C M wf).window (ix2 J b) 1 = b.val := window1 wf (ix2 J b)
  have hr := r.isLt
  have hb := b.isLt
  have hq := q.isLt
  generalize (idx (ix2 J ⟨0, Nat.one_pos⟩)).toInt = t at hs0 ⊢
  unfold ScatterDims.resultIdx?
  split
  · next h =>
    have h0 : 0 ≤ t + ((0 : ℕ) : ℤ) ∧ t + ((0 : ℕ) : ℤ) < (G : ℤ) := by
      have := h 0; rw [hs0, hw0] at this; exact this
    constructor
    · intro e
      have e := Option.some.inj e
      have e0 : (t + ((0 : ℕ) : ℤ)).toNat = r.val := by
        have := congrArg (fun f => (f 0).val) e
        simp only [] at this
        rw [hs0, hw0] at this; exact this
      have e1 : ((0 : ℤ) + ((b.val : ℕ) : ℤ)).toNat = q.val := by
        have := congrArg (fun f => (f 1).val) e
        simp only [] at this
        rw [hs1, hw1] at this; exact this
      exact ⟨by omega, Fin.ext (by omega)⟩
    · rintro ⟨e0, e1⟩
      subst e1
      congr 1
      funext a
      apply Fin.ext
      match a with
      | ⟨0, _⟩ =>
        show ((rowScatter G C M wf).start (ix2 J b) idx 0 + ((rowScatter G C M wf).window (ix2 J b) 0 : ℕ)).toNat = r.val
        rw [hs0, hw0]; omega
      | ⟨1, _⟩ =>
        show ((rowScatter G C M wf).start (ix2 J b) idx 1 + ((rowScatter G C M wf).window (ix2 J b) 1 : ℕ)).toNat = b.val
        rw [hs1, hw1]; omega
  · next h =>
    constructor
    · intro e; exact absurd e (by simp)
    · rintro ⟨e0, e1⟩
      exfalso
      apply h
      intro a
      match a with
      | ⟨0, _⟩ =>
        show 0 ≤ (rowScatter G C M wf).start (ix2 J b) idx 0 + ((rowScatter G C M wf).window (ix2 J b) 0 : ℕ)
          ∧ (rowScatter G C M wf).start (ix2 J b) idx 0 + ((rowScatter G C M wf).window (ix2 J b) 0 : ℕ) < (G : ℤ)
        rw [hs0, hw0]; omega
      | ⟨1, _⟩ =>
        show 0 ≤ (rowScatter G C M wf).start (ix2 J b) idx 1 + ((rowScatter G C M wf).window (ix2 J b) 1 : ℕ)
          ∧ (rowScatter G C M wf).start (ix2 J b) idx 1 + ((rowScatter G C M wf).window (ix2 J b) 1 : ℕ) < (C : ℤ)
        rw [hs1, hw1]; omega

theorem rowScatter_apply (x : (⟨2, ![G, C]⟩ : Shape).Idx → EReal) (idx : IVec ⟨2, ![M, 1]⟩ 32)
    (seg : (⟨1, ![M]⟩ : Shape).Idx → BitVec 32) (hidx : ∀ J : Fin M, idx (ix2 J ⟨0, Nat.one_pos⟩) = seg (ix1 J))
    (upd : (⟨2, ![M, C]⟩ : Shape).Idx → EReal) (r : Fin G) (q : Fin C) :
    Ideal.hostScatterAdd (rowScatter G C M wf) x idx upd (ix2 r q)
      = x (ix2 r q) + ∑ J ∈ (Finset.range M).filter (fun J => (natSeg seg J).toInt = (r.val : ℤ)), natRow upd q J := by
  unfold Ideal.hostScatterAdd
  show x (ix2 r q) + _ = _
  congr 1
  rw [Finset.sum_filter, sum_idx2, Finset.sum_filter,
    ← Fin.sum_univ_eq_sum_range (fun J => if (natSeg seg J).toInt = (r.val : ℤ) then natRow upd q J else 0) M]
  refine Finset.sum_congr rfl fun a _ => ?_
  rw [natSeg_of_lt seg a.val a.isLt, natRow_of_lt upd q a.val a.isLt]
  show _ = if (seg (ix1 a)).toInt = (r.val : ℤ) then upd (ix2 a q) else 0
  simp only [resultIdx_iff wf, hidx]
  by_cases hP : (seg (ix1 a)).toInt = (r.val : ℤ)
  · simp only [hP, true_and, if_true]
    rw [Finset.sum_ite_eq' Finset.univ q (fun b => upd (ix2 a b)), if_pos (Finset.mem_univ q)]
  · simp only [hP, false_and, if_false, Finset.sum_const_zero]

end RowScatter

end Cert.SegSum

end
-- ==== Proof.Val.TowerLib.lean ====
import proofs.«401583_j19292993094061_1_alg».proof.Proof.Gen.KernelIdeal.Skeleton
import proofs.«401583_j19292993094061_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.Val

open Idealize.ShloMosaic Idealize.ShloMosaic.TcCoe Idealize.SL.Sem
open Idealize.ShloMosaic.ValueIdx
open scoped BigOperators

-- A rows-by-columns product contracts one axis: its sum runs over that axis's coordinate.
theorem plain_sum {M K N : ℕ} (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg l (Shape.idx_ext₂ rfl hk)) (congrArg r (Shape.idx_ext₂ hk rfl))

theorem matmul_plain_apply {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q) = ∑ k : Fin K, l (ix2 p k) * r (ix2 k q) := by
  subst hD
  exact (Ideal.matmul_constant_zero_apply _ none l r _).trans (plain_sum l r p q)

theorem dotGeneral_plain_apply {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (p : Fin M) (q : Fin N) :
    Host.dotGeneral (F := Ideal) D none l r (ix2 p q) = ∑ k : Fin K, l (ix2 p k) * r (ix2 k q) := by
  subst hD
  exact (Ideal.dotGeneral_apply _ none _ l r _).trans (plain_sum l r p q)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcast_val {a : ℕ} (p : Fin a) : p.val = if a = 1 then 0 else p.val := by
  split
  · have := p.isLt; omega
  · rfl

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with
    | ⟨0, _⟩ => bcast_val p
    | ⟨1, _⟩ => rfl

def mlpRow {K : ℕ} (x : Fin K → EReal) (W1 : (⟨2, ![K, 256]⟩ : Shape).Idx → EReal) (b1 : (⟨1, ![256]⟩ : Shape).Idx → EReal)
    (W2 : (⟨2, ![256, 64]⟩ : Shape).Idx → EReal) (b2 : (⟨1, ![64]⟩ : Shape).Idx → EReal) (q : Fin 64) : EReal :=
  (∑ k2 : Fin 256, max ((∑ k1 : Fin K, x k1 * W1 (ix2 k1 k2)) + b1 (ix1 k2)) (Ideal.ofBits .f32 0x00000000#32) * W2 (ix2 k2 q))
    + b2 (ix1 q)

def l2Row (y : Fin 64 → EReal) (q : Fin 64) : EReal :=
  Ideal.div (y q) (max (Ideal.sqrt (∑ k : Fin 64, y k * y k)) (Ideal.ofBits .f32 0x2B8CBCCC#32))

section Kernel
open Cert.KernelIdeal Cert.KernelIdeal.Gen

theorem rowsum_apply (v : FVec Ideal S2048x64 .f32) (p : Fin 2048) :
    multiReduction .add [1] S2048 v 0x00000000#32 reduces_S2048x64_S2048 (.inl rfl) rfl (ix1 p) = ∑ k : Fin 64, v (ix2 p k) :=
  (Ideal.multiReduction_add_single v 0x00000000#32 reduces_S2048x64_S2048 (.inl rfl) rfl (ix1 p)).trans
    (Finset.sum_congr rfl fun k _ => congrArg v (Shape.idx_ext₂ rfl rfl))

-- Each row is divided by its Euclidean length, kept away from zero.
theorem l2norm_apply (y : FVec Ideal S2048x64 .f32) (p : Fin 2048) (q : Fin 64) :
    divf y (broadcastTo S2048x64 (maximumf (sqrt (shapeCast S2048x1 (multiReduction .add [1] S2048 (mulf y y) 0x00000000#32 reduces_S2048x64_S2048 (.inl rfl) rfl) shapeCasts_S2048_S2048x1))
        (broadcast S2048x1 (Scalar.ofBits (F := Ideal) .f32 0x2B8CBCCC#32))) broadcasts_S2048x1_S2048x64) (ix2 p q)
      = l2Row (fun k => y (ix2 p k)) q := by
  rw [divf_apply, broadcastTo_a1_ab_apply, maximumf_apply, broadcast_apply]
  show Ideal.div _ (max (Ideal.sqrt (shapeCast S2048x1 _ shapeCasts_S2048_S2048x1 (ix2 p (0 : Fin 1)))) _) = _
  rw [shapeCast_a_a1_apply, rowsum_apply]
  rfl

-- Two dense layers with a rectifier between them, read at one entry of a row.
theorem mlp_apply {K : ℕ} (D : DotDims ⟨2, ![2048, K]⟩ ⟨2, ![K, 256]⟩ S2048x256) (hD : D = DotDims.plain 2048 K 256)
    (x : FVec Ideal ⟨2, ![2048, K]⟩ .f32) (w1 : FVec Ideal ⟨2, ![K, 256]⟩ .bf16) (b1 : Vec Ideal S256 .f32)
    (w2 : FVec Ideal S256x64 .bf16) (b2 : Vec Ideal S64 .f32) (p : Fin 2048) (q : Fin 64) :
    addf (matmul dot_S2048x256_S256x64_S2048x64_1_0_0_1_n_n none
        (truncf .bf16 (maximumf (addf (matmul D none (truncf .bf16 x bitsLt_bf16_f32) w1 (constant S2048x256 .f32 0x00000000#32))
            (broadcastTo S2048x256 (shapeCast S1x256 b1 shapeCasts_S256_S1x256) broadcasts_S1x256_S2048x256))
          (broadcast S2048x256 (Scalar.ofBits (F := Ideal) .f32 0x00000000#32))) bitsLt_bf16_f32) w2 (constant S2048x64 .f32 0x00000000#32))
      (broadcastTo S2048x64 (shapeCast S1x64 b2 shapeCasts_S64_S1x64) broadcasts_S1x64_S2048x64) (ix2 p q)
      = mlpRow (fun k => x (ix2 p k)) w1 b1 w2 b2 q := by
  unfold mlpRow
  rw [addf_apply, matmul_plain_apply dot_S2048x256_S256x64_S2048x64_1_0_0_1_n_n rfl, broadcastTo_1b_ab_apply, shapeCast_a_1a_apply]
  refine congrArg (· + b2 (ix1 q)) (Finset.sum_congr rfl fun k2 _ => ?_)
  rw [truncf_apply, maximumf_apply, addf_apply, matmul_plain_apply D hD, broadcastTo_1b_ab_apply, shapeCast_a_1a_apply, broadcast_apply]
  rfl

end Kernel

section Reference
open Cert.ReferenceIdeal Cert.ReferenceIdeal.Gen

theorem bcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) fun ax => match ax with
    | ⟨0, _⟩ => bcast_val i

theorem bcastInDim_a1_ab_apply {α : Type} {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) :=
  broadcastInDim_apply _ h x (ix2 p c) (ix2 p (0 : Fin 1)) fun ax => match ax with
    | ⟨0, _⟩ => bcast_val p
    | ⟨1, _⟩ => rfl

theorem bcastInDim_b_1b_apply {α : Type} {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) :=
  broadcastInDim_apply _ h x (ix2 u c) (ix1 c) fun ax => match ax with
    | ⟨0, _⟩ => bcast_val c

theorem bcastInDim_1b_ab_apply {α : Type} {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) :=
  broadcastInDim_apply _ h x (ix2 p c) (ix2 (0 : Fin 1) c) fun ax => match ax with
    | ⟨0, _⟩ => rfl
    | ⟨1, _⟩ => bcast_val c

theorem bcastInDim_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

-- The reference's two dense layers, read at one entry of a row.
theorem refMlp_apply {K : ℕ} (D : DotDims ⟨2, ![16384, K]⟩ ⟨2, ![K, 256]⟩ S16384x256) (hD : D = DotDims.plain 16384 K 256)
    (X : FVec Ideal ⟨2, ![16384, K]⟩ .f32) (w1 : FVec Ideal ⟨2, ![K, 256]⟩ .f32) (b1 : FVec Ideal S256 .f32)
    (w2 : FVec Ideal S256x64 .f32) (b2 : FVec Ideal S64 .f32) (r : Fin 16384) (q : Fin 64) :
    addf (Host.dotGeneral dot_S16384x256_S256x64_S16384x64_1_0_0_1_n_n none
        (maximumf (addf (Host.dotGeneral D none X w1)
            (broadcastInDim S16384x256 ![0, 1] bcast_S1x256_S16384x256_0_1 (broadcastInDim S1x256 ![1] bcast_S256_S1x256_1 b1)))
          (broadcastInDim S16384x256 ![] bcast_S_S16384x256 (constant (F := Ideal) S_ .f32 0x00000000#32)))
        w2)
      (broadcastInDim S16384x64 ![0, 1] bcast_S1x64_S16384x64_0_1 (broadcastInDim S1x64 ![1] bcast_S64_S1x64_1 b2)) (ix2 r q)
      = mlpRow (fun k => X (ix2 r k)) w1 b1 w2 b2 q := by
  unfold mlpRow
  rw [addf_apply, dotGeneral_plain_apply dot_S16384x256_S256x64_S16384x64_1_0_0_1_n_n rfl, bcastInDim_1b_ab_apply, bcastInDim_b_1b_apply]
  refine congrArg (· + b2 (ix1 q)) (Finset.sum_congr rfl fun k2 _ => ?_)
  rw [maximumf_apply, addf_apply, dotGeneral_plain_apply D hD, bcastInDim_1b_ab_apply, bcastInDim_b_1b_apply, bcastInDim_scalar_apply]
  rfl

theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl

theorem sumsq_apply (Y : FVec Ideal S16384x64 .f32) (r : Fin 16384) :
    Host.reduceAdd (F := Ideal) (mulf Y Y) (constant (F := Ideal) S_ .f32 0x00000000#32) reducesTo_S16384x64_S16384_d1 h_S_ (ix1 r)
      = ∑ k : Fin 64, Y (ix2 r k) * Y (ix2 r k) := by
  simp only [Host.reduceAdd, Ideal.hostReduceAdd_def]
  rw [Ideal.hostReduceAdd_single reducesTo_S16384x64_S16384_d1 (by decide)]
  show Ideal.ofBits .f32 0x00000000#32 + _ = _
  rw [Ideal.ofBits_zero_f32, zero_add]
  exact Finset.sum_congr rfl fun k _ => congrArg (fun i => Y i * Y i) (Shape.idx_ext₂ rfl rfl)

-- The reference divides each row by its Euclidean length, kept away from zero.
theorem refL2_apply (Y : FVec Ideal S16384x64 .f32) (r : Fin 16384) (q : Fin 64) :
    Host.divf Y (broadcastInDim S16384x64 ![0, 1] bcast_S16384x1_S16384x64_0_1
      (maximumf (Host.sqrt (broadcastInDim S16384x1 ![0] bcast_S16384_S16384x1_0
          (Host.reduceAdd (mulf Y Y) (constant (F := Ideal) S_ .f32 0x00000000#32) reducesTo_S16384x64_S16384_d1 h_S_)))
        (broadcastInDim S16384x1 ![] bcast_S_S16384x1 (constant (F := Ideal) S_ .f32 0x2B8CBCCC#32)))) (ix2 r q)
      = l2Row (fun k => Y (ix2 r k)) q := by
  unfold l2Row
  rw [hostDivf_apply, bcastInDim_a1_ab_apply, maximumf_apply, hostSqrt_apply, bcastInDim_a_a1_apply, sumsq_apply,
    bcastInDim_scalar_apply]
  rfl

end Reference

-- A block's element sits, on each axis, at the block's index times the block's extent plus its own coordinate.
theorem read_rows {α : Type} {M m n : ℕ} (A : (⟨2, ![M, n]⟩ : Shape).Idx → α) (e : (⟨2, ![m, n]⟩ : Shape).Idx → (⟨2, ![M, n]⟩ : Shape).Idx)
    (i : Fin 2 → ℕ) (t : ℕ) (he : ∀ y a, (e y a : ℕ) = i a * (![m, n] a) + 1 * y a) (hi : i 0 = t ∧ i 1 = 0)
    (p : Fin m) (q : Fin n) (r : Fin M) (hr : r.val = t * m + p.val) : A (e (ix2 p q)) = A (ix2 r q) :=
  congrArg A (Shape.idx_ext₂ (by rw [he, hi.1]; show t * m + 1 * p.val = r.val; omega) (by rw [he, hi.2]; show 0 * n + 1 * q.val = q.val; omega))

theorem read_whole {α : Type} {s : Shape} (A : s.Idx → α) (e : s.Idx → s.Idx) (i : Fin s.rank → ℕ)
    (he : ∀ y a, (e y a : ℕ) = i a * s.size a + 1 * y a) (hi : ∀ a, i a = 0) : (fun y => A (e y)) = A :=
  funext fun y => congrArg A (funext fun a => Fin.ext (by rw [he, hi]; omega))

end Cert.Val

end
-- ==== Proof.Val.SegPay.lean ====
import proofs.«401583_j19292993094061_1_alg».proof.Proof.Gen.KernelIdeal.Skeleton
import proofs.«401583_j19292993094061_1_alg».proof.Proof.Gen.KernelIdeal.Points
import proofs.«401583_j19292993094061_1_alg».proof.Proof.Val.SegSum
import proofs.«401583_j19292993094061_1_alg».proof.Proof.Val.TowerLib
import Idealize.ShloMosaic.Lib.Pipeline.Value
import Idealize.ShloMosaic.Lib.ValueIdx
import Idealize.ShloMosaic.Lib.ValueLayout
import Idealize.ShloMosaic.PureOps.Ideal.Laws

noncomputable section

namespace Cert.Val

open Idealize.ShloMosaic Idealize.ShloMosaic.TcCoe Idealize.SL.Sem Idealize.ShloMosaic.ValueIdx
open Cert.KernelIdeal Cert.KernelIdeal.Gen
open scoped BigOperators

open Cert.SegSum

def hit (g : ℕ) (p : Fin 1024) (w : BitVec 32) : EReal :=
  if BitVec.ofNat 32 (g * 1024 + p.val) = w then 1 else 0

theorem bit_value (b : Bool) :
    FloatOps.sitofp (F := Ideal) .f32 ((BitVec.ofBool b).setWidth 32) = if b then 1 else 0 := by
  cases b
  · show (((0#1 : BitVec 1).setWidth 32).toInt : ℝ) = ((0 : ℝ) : EReal)
    norm_num
  · show (((1#1 : BitVec 1).setWidth 32).toInt : ℝ) = ((1 : ℝ) : EReal)
    have : ((1#1 : BitVec 1).setWidth 32).toInt = 1 := by decide
    rw [this]; norm_num

theorem mask_apply (g : BitVec 32) (v7 : Vec Ideal S4096 .i32) (p : Fin 1024) (k : Fin 4096) :
    (truncf (F := Ideal) .bf16 (sitofp .f32 (extui 32 (cmpi .eq
        (broadcastTo S1024x4096 (addi (broadcast S1024x1 g) (iota .tc S1024x1 32 [0] iota_S1024x1_d0_w32)) broadcasts_S1024x1_S1024x4096)
        (broadcastTo S1024x4096 (shapeCast S1x4096 v7 shapeCasts_S4096_S1x4096) broadcasts_S1x4096_S1024x4096)) natLt_1_32)) bitsLt_bf16_f32) (ix2 p k)
      = if g + BitVec.ofNat 32 p.val = v7 (ix1 k) then 1 else 0 := by
  rw [truncf_apply, sitofp_apply, extui_apply]
  show FloatOps.sitofp (F := Ideal) .f32 ((IntOp.cmpi .eq
      (broadcastTo S1024x4096 (addi (broadcast S1024x1 g) (iota .tc S1024x1 32 [0] iota_S1024x1_d0_w32)) broadcasts_S1024x1_S1024x4096 (ix2 p k))
      (broadcastTo S1024x4096 (shapeCast S1x4096 v7 shapeCasts_S4096_S1x4096) broadcasts_S1x4096_S1024x4096 (ix2 p k))).setWidth 32) = _
  rw [broadcastTo_1b_ab_apply, shapeCast_a_1a_apply, broadcastTo_a1_ab_apply]
  show FloatOps.sitofp (F := Ideal) .f32 ((IntOp.cmpi .eq (IntOp.addi g (iota .tc S1024x1 32 [0] iota_S1024x1_d0_w32 (ix2 p (0 : Fin 1)))) (v7 (ix1 k))).setWidth 32) = _
  rw [iota_single_apply]
  show FloatOps.sitofp (F := Ideal) .f32 ((BitVec.ofBool (g + BitVec.ofNat 32 p.val == v7 (ix1 k))).setWidth 32) = _
  rw [bit_value]
  by_cases h : g + BitVec.ofNat 32 p.val = v7 (ix1 k)
  · rw [if_pos h, if_pos (by simpa using h)]
  · rw [if_neg h, if_neg (by simpa using h)]

theorem ext_apply (v15 : Vec Ideal S4096x64 .bf16) (k : Fin 4096) (c : Fin 65) :
    concatenate S4096x65 1 [⟨S4096x64, shapeCast S4096x64 v15 shapeCasts_S4096x64_S4096x64⟩,
        ⟨S4096x1, broadcast S4096x1 (Scalar.ofBits (F := Ideal) .bf16 0x3F80#16)⟩] concatenates_S4096x64_S4096x1_S4096x65_d1 (ix2 k c)
      = if h : c.val < 64 then v15 (ix2 k ⟨c.val, h⟩) else Ideal.ofBits .bf16 0x3F80#16 := by
  rw [shapeCast_self]
  by_cases h : c.val < 64
  · rw [dif_pos h]
    exact concatenate_pair_apply_left (t := S4096x65) (s₁ := S4096x64) (s₂ := S4096x1) 1 v15 _ concatenates_S4096x64_S4096x1_S4096x65_d1
      (ix2 k c) rfl (ix2 k ⟨c.val, h⟩) (fun b => match b with
        | ⟨0, _⟩ => rfl
        | ⟨1, _⟩ => rfl)
  · rw [dif_neg h]
    have hc : c.val = 64 := by have := c.isLt; omega
    exact concatenate_pair_apply_right (t := S4096x65) (s₁ := S4096x64) (s₂ := S4096x1) 1 v15 _ concatenates_S4096x64_S4096x1_S4096x65_d1
      (ix2 k c) rfl rfl (ix2 k (0 : Fin 1)) (fun b => match b with
        | ⟨0, _⟩ => fun _ => rfl
        | ⟨1, _⟩ => fun hb => absurd rfl hb)
      (by show 0 + 64 = c.val; omega)

theorem group_word (g : ℕ) (p : Fin 1024) :
    Scalar.muli (BitVec.ofNat 32 g) 1024#32 + BitVec.ofNat 32 p.val = BitVec.ofNat 32 (g * 1024 + p.val) := by
  show BitVec.ofNat 32 g * BitVec.ofNat 32 1024 + BitVec.ofNat 32 p.val = _
  rw [BitVec.ofNat_add, BitVec.ofNat_mul]

theorem pay3_apply (i : grid0.Coords) (v7 : Vec Ideal S4096 .i32) (v15 : Vec Ideal S4096x64 .bf16) (p : Fin 1024) (c : Fin 65) :
    k0_pay3 (F := Ideal) i v7 v15 (ix2 p c)
      = ∑ k : Fin 4096, hit (i 0).val p (v7 (ix1 k)) * (if h : c.val < 64 then v15 (ix2 k ⟨c.val, h⟩) else Ideal.ofBits .bf16 0x3F80#16) := by
  unfold k0_pay3
  dsimp only
  refine (matmul_plain_apply dot_S1024x4096_S4096x65_S1024x65_1_0_0_1_n_n rfl _ _ p c).trans ?_
  refine Finset.sum_congr rfl fun k _ => ?_
  rw [mask_apply, ext_apply, group_word]
  rfl

theorem pay4_apply (i : grid0.Coords) (v7 : Vec Ideal S4096 .i32) (v15 : Vec Ideal S4096x64 .bf16) (v20 : Vec Ideal S1024x64 .f32)
    (p : Fin 1024) (q : Fin 64) :
    k0_pay4 (F := Ideal) i v7 v15 v20 (ix2 p q)
      = v20 (ix2 p q) + ∑ k : Fin 4096, hit (i 0).val p (v7 (ix1 k)) * v15 (ix2 k q) := by
  unfold k0_pay4
  rw [shapeCast_self, addf_apply,
    slice2_axis1_apply 0 (k0_pay3 (F := Ideal) i v7 v15) slices_S1024x65_o0_0_S1024x64 p q ⟨q.val, by have := q.isLt; omega⟩ (by simp),
    pay3_apply]
  congr 1
  refine Finset.sum_congr rfl fun k _ => ?_
  rw [dif_pos (show q.val < 64 from q.isLt)]

theorem pay5_apply (i : grid0.Coords) (v7 : Vec Ideal S4096 .i32) (v15 : Vec Ideal S4096x64 .bf16) (v26 : Vec Ideal S1024x1 .f32)
    (p : Fin 1024) :
    k0_pay5 (F := Ideal) i v7 v15 v26 (ix2 p (0 : Fin 1))
      = v26 (ix2 p (0 : Fin 1)) + ∑ k : Fin 4096, hit (i 0).val p (v7 (ix1 k)) * Ideal.ofBits .bf16 0x3F80#16 := by
  unfold k0_pay5
  rw [shapeCast_self, addf_apply,
    slice2_axis1_apply 64 (k0_pay3 (F := Ideal) i v7 v15) slices_S1024x65_o0_64_S1024x1 p (0 : Fin 1) ⟨64, by decide⟩ (by simp),
    pay3_apply]
  congr 1

theorem pay6_apply (v35 : Vec Ideal S1024x64 .f32) (v36 : Vec Ideal S1024x1 .f32) (p : Fin 1024) (q : Fin 64) :
    k0_pay6 (F := Ideal) v35 v36 (ix2 p q)
      = Ideal.div (v35 (ix2 p q)) (max (v36 (ix2 p (0 : Fin 1))) (Ideal.ofBits .f32 0x3F800000#32)) := by
  unfold k0_pay6
  rw [divf_apply, broadcastTo_a1_ab_apply, maximumf_apply, broadcast_apply]
  rfl

theorem pay1_apply (j : S1024x64.Idx) : k0_pay1 (F := Ideal) j = 0 := by
  unfold k0_pay1
  rw [shapeCast_self, broadcast_apply]
  exact Ideal.ofBits_zero_f32

theorem pay2_apply (j : S1024x1.Idx) : k0_pay2 (F := Ideal) j = 0 := by
  unfold k0_pay2
  rw [shapeCast_self, broadcast_apply]
  exact Ideal.ofBits_zero_f32

/-- Block `s` of the segment words and of the rows, read at naturals: entry `y` of the block is member `s * 4096 + y`. -/
def segBlk {M : ℕ} (x : (⟨1, ![M]⟩ : Shape).Idx → BitVec 32) (s : ℕ) : Vec Ideal S4096 .i32 :=
  fun y => natSeg x (s * 4096 + (y 0).val)

def rowBlk {M : ℕ} (X : (⟨2, ![M, 64]⟩ : Shape).Idx → EReal) (s : ℕ) : Vec Ideal S4096x64 .bf16 :=
  fun y => natRow X (y 1) (s * 4096 + (y 0).val)

/-- Within outer step `g` each block adds its indicator-weighted rows to a sum that starts at zero, so after block `k` it holds blocks `0..k`. -/
theorem acc_run (N K : ℕ) (io : (n : ℕ) → n < N → grid0.Coords) {M : ℕ}
    (seg : (⟨1, ![M]⟩ : Shape).Idx → BitVec 32) (X : (⟨2, ![M, 64]⟩ : Shape).Idx → EReal) (acc : ℕ → Vec Ideal S1024x64 .f32)
    (hacc : ∀ (n : ℕ) (hn : n < N), acc n = k0_pay4 (F := Ideal) (io n hn) (segBlk seg (n % K)) (rowBlk X (n % K))
      (if n % K = 0 then k0_pay1 (F := Ideal) else acc (n - 1)))
    (g : ℕ) (hio : ∀ k, k < K → ∀ hn : g * K + k < N, ((io (g * K + k) hn) 0).val = g)
    (hmod : ∀ k, k < K → (g * K + k) % K = k) (p : Fin 1024) (q : Fin 64) :
    ∀ k, k < K → g * K + k < N → acc (g * K + k) (ix2 p q)
      = ∑ s ∈ Finset.range (k + 1), ∑ j : Fin 4096,
          (if BitVec.ofNat 32 (g * 1024 + p.val) = natSeg seg (s * 4096 + j.val) then (1 : EReal) else 0) * natRow X q (s * 4096 + j.val)
  | 0, hk, hn => by
    rw [hacc _ hn, if_pos (hmod 0 hk), pay4_apply, pay1_apply, zero_add, Finset.sum_range_one, hio 0 hk hn, hmod 0 hk]
    rfl
  | k + 1, hk, hn => by
    have hne : ¬ (g * K + (k + 1)) % K = 0 := by rw [hmod _ hk]; omega
    rw [hacc _ hn, if_neg hne, pay4_apply, hio (k + 1) hk hn, Nat.add_succ_sub_one,
      acc_run N K io seg X acc hacc g hio hmod p q k (Nat.lt_of_succ_lt hk) (by omega), Finset.sum_range_succ _ (k + 1), hmod _ hk]
    rfl

/-- The same recurrence for the count column, whose rows are all the bf16 one. -/
theorem cnt_run (N K : ℕ) (io : (n : ℕ) → n < N → grid0.Coords) {M : ℕ}
    (seg : (⟨1, ![M]⟩ : Shape).Idx → BitVec 32) (X : (⟨2, ![M, 64]⟩ : Shape).Idx → EReal) (cnt : ℕ → Vec Ideal S1024x1 .f32)
    (hcnt : ∀ (n : ℕ) (hn : n < N), cnt n = k0_pay5 (F := Ideal) (io n hn) (segBlk seg (n % K)) (rowBlk X (n % K))
      (if n % K = 0 then k0_pay2 (F := Ideal) else cnt (n - 1)))
    (g : ℕ) (hio : ∀ k, k < K → ∀ hn : g * K + k < N, ((io (g * K + k) hn) 0).val = g)
    (hmod : ∀ k, k < K → (g * K + k) % K = k) (p : Fin 1024) :
    ∀ k, k < K → g * K + k < N → cnt (g * K + k) (ix2 p (0 : Fin 1))
      = ∑ s ∈ Finset.range (k + 1), ∑ j : Fin 4096,
          (if BitVec.ofNat 32 (g * 1024 + p.val) = natSeg seg (s * 4096 + j.val) then (1 : EReal) else 0) * Ideal.ofBits .bf16 0x3F80#16
  | 0, hk, hn => by
    rw [hcnt _ hn, if_pos (hmod 0 hk), pay5_apply, pay2_apply, zero_add, Finset.sum_range_one, hio 0 hk hn, hmod 0 hk]
    rfl
  | k + 1, hk, hn => by
    have hne : ¬ (g * K + (k + 1)) % K = 0 := by rw [hmod _ hk]; omega
    rw [hcnt _ hn, if_neg hne, pay5_apply, hio (k + 1) hk hn, Nat.add_succ_sub_one,
      cnt_run N K io seg X cnt hcnt g hio hmod p k (Nat.lt_of_succ_lt hk) (by omega), Finset.sum_range_succ _ (k + 1), hmod _ hk]
    rfl

/-- A block's element of a flat array sits at the block's index times the block's extent plus its own coordinate. -/
theorem read_seg {α : Type} {M m : ℕ} (A : (⟨1, ![M]⟩ : Shape).Idx → α) (e : (⟨1, ![m]⟩ : Shape).Idx → (⟨1, ![M]⟩ : Shape).Idx)
    (i : Fin 1 → ℕ) (t : ℕ) (he : ∀ y a, (e y a : ℕ) = i a * (![m] a) + 1 * y a) (hi : i 0 = t)
    (p : Fin m) (r : Fin M) (hr : r.val = t * m + p.val) : A (e (ix1 p)) = A (ix1 r) :=
  congrArg A ((eq_ix1 _).trans (congrArg ix1 (Fin.ext (by rw [he, hi]; show t * m + 1 * p.val = r.val; omega))))

theorem idx0_facts : ∀ t : Fin grid0.N, win0_0.index t 0 = t.val % 32 ∧ (win0_1.index t 0 = t.val % 32 ∧ win0_1.index t 1 = 0)
    ∧ (win0_2.index t 0 = t.val / 32 ∧ win0_2.index t 1 = 0) ∧ ((grid0.coords t) 0).val = t.val / 32 := by decide +kernel

/-- A point of the second grid as a point of the first: the payloads read only coordinate 0. -/
def toG0 (i : grid1.Coords) : grid0.Coords := fun a => match a with
  | ⟨0, _⟩ => ⟨(i 0).val, (i 0).isLt⟩
  | ⟨1, _⟩ => ⟨0, Nat.zero_lt_succ 31⟩

theorem idx1_facts : ∀ t : Fin grid1.N, win1_0.index t 0 = t.val % 16 ∧ (win1_1.index t 0 = t.val % 16 ∧ win1_1.index t 1 = 0)
    ∧ (win1_2.index t 0 = t.val / 16 ∧ win1_2.index t 1 = 0) ∧ ((grid1.coords t) 0).val = t.val / 16 := by decide +kernel

end Cert.Val

end
-- ==== Proof.Val.SegMean.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.ReferenceIdeal.Read
import proofs.«401583_j19292993094061_1_alg».proof.Proof.Val.SegSum
import proofs.«401583_j19292993094061_1_alg».proof.Proof.Val.SegPay
import Idealize.ShloMosaic.Lib.Pipeline.Value
import Idealize.ShloMosaic.Lib.ValueIdx
import Idealize.ShloMosaic.Lib.ValueLayout
import Idealize.ShloMosaic.PureOps.Ideal.Laws

noncomputable section

namespace Cert.Val

open Idealize.ShloMosaic Idealize.ShloMosaic.TcCoe Idealize.SL.Sem Idealize.ShloMosaic.ValueIdx
open Cert.KernelIdeal Cert.KernelIdeal.Gen
open scoped BigOperators

open Cert.SegSum

theorem one_bf16 : Ideal.ofBits .bf16 0x3F80#16 = 1 := by
  simp [Ideal.ofBits, Ideal.ieee, -EReal.coe_mul]; norm_num
theorem one_f32 : Ideal.ofBits .f32 0x3F800000#32 = 1 := by
  simp [Ideal.ofBits, Ideal.ieee, -EReal.coe_mul]; norm_num

/-- After the `K` blocks of outer step `g` the sum and the count hold exactly the members of segments `g * 1024 + p`, so the stored block is the reference's mean there. -/
theorem mean_block (N K : ℕ) (hK : 0 < K) (hN : N = K * 16) (io : (n : ℕ) → n < N → grid0.Coords)
    (hio : ∀ n hn, ((io n hn) 0).val = n / K) {M : ℕ} (hM : K * 4096 = M)
    (seg : (⟨1, ![M]⟩ : Shape).Idx → BitVec 32) (X : (⟨2, ![M, 64]⟩ : Shape).Idx → EReal)
    (R : (⟨2, ![16384, 64]⟩ : Shape).Idx → EReal)
    (hR : ∀ (r : ℕ) (hr : r < 16384) (q : Fin 64), R (ix2 ⟨r, hr⟩ q)
      = Ideal.div (∑ J ∈ (Finset.range M).filter (fun J => (natSeg seg J).toInt = (r : ℤ)), natRow X q J)
          (max (∑ J ∈ (Finset.range M).filter (fun J => (natSeg seg J).toInt = (r : ℤ)), (1 : EReal))
            (Ideal.ofBits .f32 0x3F800000#32)))
    (sb : (n : ℕ) → n < N → Vec Ideal S4096 .i32) (rb : (n : ℕ) → n < N → Vec Ideal S4096x64 .bf16)
    (ob : (n : ℕ) → n < N → Vec Ideal S1024x64 .f32)
    (hsb : ∀ n hn (p : Fin 4096) (j : Fin M), j.val = n % K * 4096 + p.val → sb n hn (ix1 p) = seg (ix1 j))
    (hrb : ∀ n hn (p : Fin 4096) (q : Fin 64) (j : Fin M), j.val = n % K * 4096 + p.val → rb n hn (ix2 p q) = X (ix2 j q))
    (hob : ∀ n hn (p : Fin 1024) (q : Fin 64) (r : Fin 16384), r.val = n / K * 1024 + p.val → ob n hn (ix2 p q) = R (ix2 r q))
    (acc : ℕ → Vec Ideal S1024x64 .f32) (cnt : ℕ → Vec Ideal S1024x1 .f32)
    (hacc : ∀ (n : ℕ) (hn : n < N), acc n = k0_pay4 (F := Ideal) (io n hn) (sb n hn) (rb n hn)
      (if n % K = 0 then k0_pay1 (F := Ideal) else acc (n - 1)))
    (hcnt : ∀ (n : ℕ) (hn : n < N), cnt n = k0_pay5 (F := Ideal) (io n hn) (sb n hn) (rb n hn)
      (if n % K = 0 then k0_pay2 (F := Ideal) else cnt (n - 1)))
    (t : ℕ) (ht : t < N) (htK : t % K = K - 1) :
    k0_pay6 (F := Ideal) (acc t) (cnt t) = ob t ht := by
  obtain ⟨g, rfl⟩ : ∃ g, t = g * K + (K - 1) := ⟨t / K, by rw [← htK, Nat.div_add_mod']⟩
  have hK1 : K - 1 < K := Nat.sub_lt hK Nat.one_pos
  have hmod : ∀ k, k < K → (g * K + k) % K = k := fun k hk => Nat.mul_add_mod_of_lt hk
  have hdiv : ∀ k, k < K → (g * K + k) / K = g := fun k hk => by
    rw [Nat.mul_comm, Nat.mul_add_div hK, Nat.div_eq_of_lt hk, Nat.add_zero]
  have hg : g < 16 := by rw [← hdiv _ hK1]; exact Nat.div_lt_of_lt_mul (hN ▸ ht)
  have hlt : ∀ (n j : ℕ), j < 4096 → n % K * 4096 + j < M := fun n j hj => by have := Nat.mod_lt n hK; omega
  have hsb' : ∀ n hn, sb n hn = segBlk seg (n % K) := fun n hn => funext fun y => by
    obtain ⟨p, rfl⟩ : ∃ p : Fin 4096, y = ix1 p := ⟨y 0, eq_ix1 y⟩
    exact (hsb n hn p ⟨_, hlt n _ p.isLt⟩ rfl).trans (natSeg_of_lt seg _ _).symm
  have hrb' : ∀ n hn, rb n hn = rowBlk X (n % K) := fun n hn => funext fun y => by
    obtain ⟨p, q, rfl⟩ : ∃ (p : Fin 4096) (q : Fin 64), y = ix2 p q := ⟨y 0, y 1, eq_ix2 y⟩
    exact (hrb n hn p q ⟨_, hlt n _ p.isLt⟩ rfl).trans (natRow_of_lt X q _ _).symm
  have hio' : ∀ k, k < K → ∀ hn : g * K + k < N, ((io (g * K + k) hn) 0).val = g :=
    fun k hk hn => (hio _ hn).trans (hdiv k hk)
  funext y
  obtain ⟨p, q, rfl⟩ : ∃ (p : Fin 1024) (q : Fin 64), y = ix2 p q := ⟨y 0, y 1, eq_ix2 y⟩
  have hp := p.isLt
  rw [hob _ ht p q ⟨g * 1024 + p.val, by omega⟩ (by show g * 1024 + p.val = _; rw [hdiv _ hK1]), hR, pay6_apply,
    acc_run N K io seg X acc (fun n hn => (hacc n hn).trans (by rw [hsb' n hn, hrb' n hn])) g hio' hmod p q (K - 1) hK1 ht,
    cnt_run N K io seg X cnt (fun n hn => (hcnt n hn).trans (by rw [hsb' n hn, hrb' n hn])) g hio' hmod p (K - 1) hK1 ht,
    Nat.sub_add_cancel hK, one_bf16,
    sum_blocks_indicator K 4096 (fun J => BitVec.ofNat 32 (g * 1024 + p.val) = natSeg seg J) (natRow X q),
    sum_blocks_indicator K 4096 (fun J => BitVec.ofNat 32 (g * 1024 + p.val) = natSeg seg J) (fun _ => (1 : EReal)), hM,
    Finset.filter_congr (fun J _ => word_eq_iff_toInt (g * 1024 + p.val) (by omega) (natSeg seg J))]

/-- A scatter-add into zeros read at row `r` is the sum over the members whose segment word is `r`; over rows of ones it is their count. -/
theorem scatter_mean {M : ℕ} (wfS : ScatterDims.WF ⟨2, ![16384, 64]⟩ ⟨2, ![M, 1]⟩ ⟨2, ![M, 64]⟩ [1] [0] [0] 1)
    (wfC : ScatterDims.WF ⟨2, ![16384, 1]⟩ ⟨2, ![M, 1]⟩ ⟨2, ![M, 1]⟩ [1] [0] [0] 1)
    (zS : (⟨2, ![16384, 64]⟩ : Shape).Idx → EReal) (zC : (⟨2, ![16384, 1]⟩ : Shape).Idx → EReal) (iS iC : IVec ⟨2, ![M, 1]⟩ 32)
    (seg : (⟨1, ![M]⟩ : Shape).Idx → BitVec 32) (X : (⟨2, ![M, 64]⟩ : Shape).Idx → EReal) (ones : (⟨2, ![M, 1]⟩ : Shape).Idx → EReal)
    (hzS : ∀ i, zS i = Ideal.ofBits .f32 0x00000000#32) (hzC : ∀ i, zC i = Ideal.ofBits .f32 0x00000000#32)
    (hiS : ∀ J : Fin M, iS (ix2 J ⟨0, Nat.one_pos⟩) = seg (ix1 J)) (hiC : ∀ J : Fin M, iC (ix2 J ⟨0, Nat.one_pos⟩) = seg (ix1 J))
    (hones : ∀ i, ones i = Ideal.ofBits .f32 0x3F800000#32) (r : Fin 16384) (q : Fin 64) :
    Ideal.div (Ideal.hostScatterAdd (rowScatter 16384 64 M wfS) zS iS X (ix2 r q))
        (max (Ideal.hostScatterAdd (rowScatter 16384 1 M wfC) zC iC ones (ix2 r (0 : Fin 1))) (Ideal.ofBits .f32 0x3F800000#32))
      = Ideal.div (∑ J ∈ (Finset.range M).filter (fun J => (natSeg seg J).toInt = (r.val : ℤ)), natRow X q J)
          (max (∑ J ∈ (Finset.range M).filter (fun J => (natSeg seg J).toInt = (r.val : ℤ)), (1 : EReal))
            (Ideal.ofBits .f32 0x3F800000#32)) := by
  have hc : ∀ J ∈ (Finset.range M).filter (fun J => (natSeg seg J).toInt = (r.val : ℤ)), natRow ones (0 : Fin 1) J = 1 := fun J hJ => by
    rw [natRow_of_lt _ _ J (Finset.mem_range.mp (Finset.mem_filter.mp hJ).1), hones, one_f32]
  rw [rowScatter_apply wfS zS iS seg hiS X r q, rowScatter_apply wfC zC iC seg hiC ones r 0, hzS, hzC, Ideal.ofBits_zero_f32,
    zero_add, zero_add, Finset.sum_congr rfl hc]

theorem segmean0_block (x0 : (⟨Cert.ReferenceIdeal.S1000001x64, .f32⟩ : BufTy).Contents (Elt Ideal))
    (x14 x15 : (⟨Cert.ReferenceIdeal.S131072, .i32⟩ : BufTy).Contents (Elt Ideal))
    (acc : ℕ → Vec Ideal S1024x64 .f32) (cnt : ℕ → Vec Ideal S1024x1 .f32)
    (hacc : ∀ (n : ℕ) (hn : n < cfg0.N), acc n = k0_pay4 (F := Ideal) (grid0.coords ⟨n, hn⟩)
      (((cfg0.win 0).blk ⟨n, hn⟩).view.read (Elt Ideal) x15)
      (((cfg0.win 1).blk ⟨n, hn⟩).view.read (Elt Ideal) (Cert.ReferenceIdeal.Read.val_main_v6 (F := Ideal) x0 x14))
      (if n % 32 = 0 then k0_pay1 (F := Ideal) else acc (n - 1)))
    (hcnt : ∀ (n : ℕ) (hn : n < cfg0.N), cnt n = k0_pay5 (F := Ideal) (grid0.coords ⟨n, hn⟩)
      (((cfg0.win 0).blk ⟨n, hn⟩).view.read (Elt Ideal) x15)
      (((cfg0.win 1).blk ⟨n, hn⟩).view.read (Elt Ideal) (Cert.ReferenceIdeal.Read.val_main_v6 (F := Ideal) x0 x14))
      (if n % 32 = 0 then k0_pay2 (F := Ideal) else cnt (n - 1)))
    (t : Fin cfg0.N) (ht : t.val % 32 = 31) :
    k0_pay6 (F := Ideal) (acc t.val) (cnt t.val)
      = ((cfg0.win 2).blk t).view.read (Elt Ideal) (Cert.ReferenceIdeal.Read.val_main_v17 (F := Ideal) x0 x14 x15) := by
  exact mean_block cfg0.N 32 (by decide) rfl (fun n hn => grid0.coords ⟨n, hn⟩) (fun n hn => (idx0_facts ⟨n, hn⟩).2.2.2) rfl x15
    (Cert.ReferenceIdeal.Read.val_main_v6 (F := Ideal) x0 x14) _ (fun r hr q => by
      have hi : Cert.ReferenceIdeal.Read.idx_main_v16 (ix2 (⟨r, hr⟩ : Fin 16384) q) = ix2 (⟨r, hr⟩ : Fin 16384) (0 : Fin 1) :=
        funext fun a => match a with | ⟨0, _⟩ => rfl | ⟨1, _⟩ => rfl
      rw [Cert.ReferenceIdeal.Read.val_main_v17_apply, Cert.ReferenceIdeal.Read.val_main_v16_apply, hi,
        Cert.ReferenceIdeal.Read.val_main_v15_apply, Cert.ReferenceIdeal.Read.val_main_v14_apply,
        Cert.ReferenceIdeal.Read.val_main_cst_3_apply]
      exact scatter_mean (M := 131072) Cert.ReferenceIdeal.scatter_S16384x64_S131072x1_S131072x64_1_0_0_1.wf
        Cert.ReferenceIdeal.scatter_S16384x1_S131072x1_S131072x1_1_0_0_1.wf _ _ _ _ x15 _ _
        (fun i => (Cert.ReferenceIdeal.Read.val_main_v7_apply i).trans (Cert.ReferenceIdeal.Read.val_main_cst_apply _))
        (fun i => (Cert.ReferenceIdeal.Read.val_main_v11_apply i).trans (Cert.ReferenceIdeal.Read.val_main_cst_2_apply _))
        (fun J => (Cert.ReferenceIdeal.Read.val_main_v8_apply x15 _).trans (congrArg x15 (funext fun a => match a with | ⟨0, _⟩ => rfl)))
        (fun J => (Cert.ReferenceIdeal.Read.val_main_v12_apply x15 _).trans (congrArg x15 (funext fun a => match a with | ⟨0, _⟩ => rfl)))
        (fun i => (Cert.ReferenceIdeal.Read.val_main_v10_apply i).trans (Cert.ReferenceIdeal.Read.val_main_cst_1_apply _)) ⟨r, hr⟩ q)
    (fun n hn => ((cfg0.win 0).blk ⟨n, hn⟩).view.read (Elt Ideal) x15)
    (fun n hn => ((cfg0.win 1).blk ⟨n, hn⟩).view.read (Elt Ideal) (Cert.ReferenceIdeal.Read.val_main_v6 (F := Ideal) x0 x14))
    (fun n hn => ((cfg0.win 2).blk ⟨n, hn⟩).view.read (Elt Ideal) (Cert.ReferenceIdeal.Read.val_main_v17 (F := Ideal) x0 x14 x15))
    (fun n hn p j h => read_seg x15 _ (win0_0.index ⟨n, hn⟩) (n % 32) (fun _ _ => rfl) (idx0_facts ⟨n, hn⟩).1 p j h)
    (fun n hn p q j h => read_rows (Cert.ReferenceIdeal.Read.val_main_v6 (F := Ideal) x0 x14) _ (win0_1.index ⟨n, hn⟩) (n % 32) (fun _ _ => rfl) (idx0_facts ⟨n, hn⟩).2.1 p q j h)
    (fun n hn p q r h => read_rows (Cert.ReferenceIdeal.Read.val_main_v17 (F := Ideal) x0 x14 x15) _ (win0_2.index ⟨n, hn⟩) (n / 32) (fun _ _ => rfl) (idx0_facts ⟨n, hn⟩).2.2.1 p q r h)
    acc cnt hacc hcnt t.val t.isLt ht

/-- The second call's payloads are the first's at `toG0 i` by unfolding, so the same lemma applies with `K = 16`. -/
theorem segmean1_block (x2 : (⟨Cert.ReferenceIdeal.S1001x64, .f32⟩ : BufTy).Contents (Elt Ideal))
    (x17 x18 : (⟨Cert.ReferenceIdeal.S65536, .i32⟩ : BufTy).Contents (Elt Ideal))
    (acc : ℕ → Vec Ideal S1024x64 .f32) (cnt : ℕ → Vec Ideal S1024x1 .f32)
    (hacc : ∀ (n : ℕ) (hn : n < cfg1.N), acc n = k1_pay4 (F := Ideal) (grid1.coords ⟨n, hn⟩)
      (((cfg1.win 0).blk ⟨n, hn⟩).view.read (Elt Ideal) x18)
      (((cfg1.win 1).blk ⟨n, hn⟩).view.read (Elt Ideal) (Cert.ReferenceIdeal.Read.val_main_v64 (F := Ideal) x2 x17))
      (if n % 16 = 0 then k1_pay1 (F := Ideal) else acc (n - 1)))
    (hcnt : ∀ (n : ℕ) (hn : n < cfg1.N), cnt n = k1_pay5 (F := Ideal) (grid1.coords ⟨n, hn⟩)
      (((cfg1.win 0).blk ⟨n, hn⟩).view.read (Elt Ideal) x18)
      (((cfg1.win 1).blk ⟨n, hn⟩).view.read (Elt Ideal) (Cert.ReferenceIdeal.Read.val_main_v64 (F := Ideal) x2 x17))
      (if n % 16 = 0 then k1_pay2 (F := Ideal) else cnt (n - 1)))
    (t : Fin cfg1.N) (ht : t.val % 16 = 15) :
    k1_pay6 (F := Ideal) (acc t.val) (cnt t.val)
      = ((cfg1.win 2).blk t).view.read (Elt Ideal) (Cert.ReferenceIdeal.Read.val_main_v75 (F := Ideal) x2 x17 x18) := by
  exact mean_block cfg1.N 16 (by decide) rfl (fun n hn => toG0 (grid1.coords ⟨n, hn⟩)) (fun n hn => (idx1_facts ⟨n, hn⟩).2.2.2) rfl x18
    (Cert.ReferenceIdeal.Read.val_main_v64 (F := Ideal) x2 x17) _ (fun r hr q => by
      have hi : Cert.ReferenceIdeal.Read.idx_main_v74 (ix2 (⟨r, hr⟩ : Fin 16384) q) = ix2 (⟨r, hr⟩ : Fin 16384) (0 : Fin 1) :=
        funext fun a => match a with | ⟨0, _⟩ => rfl | ⟨1, _⟩ => rfl
      rw [Cert.ReferenceIdeal.Read.val_main_v75_apply, Cert.ReferenceIdeal.Read.val_main_v74_apply, hi,
        Cert.ReferenceIdeal.Read.val_main_v73_apply, Cert.ReferenceIdeal.Read.val_main_v72_apply,
        Cert.ReferenceIdeal.Read.val_main_cst_17_apply]
      exact scatter_mean (M := 65536) Cert.ReferenceIdeal.scatter_S16384x64_S65536x1_S65536x64_1_0_0_1.wf
        Cert.ReferenceIdeal.scatter_S16384x1_S65536x1_S65536x1_1_0_0_1.wf _ _ _ _ x18 _ _
        (fun i => (Cert.ReferenceIdeal.Read.val_main_v65_apply i).trans (Cert.ReferenceIdeal.Read.val_main_cst_14_apply _))
        (fun i => (Cert.ReferenceIdeal.Read.val_main_v69_apply i).trans (Cert.ReferenceIdeal.Read.val_main_cst_16_apply _))
        (fun J => (Cert.ReferenceIdeal.Read.val_main_v66_apply x18 _).trans (congrArg x18 (funext fun a => match a with | ⟨0, _⟩ => rfl)))
        (fun J => (Cert.ReferenceIdeal.Read.val_main_v70_apply x18 _).trans (congrArg x18 (funext fun a => match a with | ⟨0, _⟩ => rfl)))
        (fun i => (Cert.ReferenceIdeal.Read.val_main_v68_apply i).trans (Cert.ReferenceIdeal.Read.val_main_cst_15_apply _)) ⟨r, hr⟩ q)
    (fun n hn => ((cfg1.win 0).blk ⟨n, hn⟩).view.read (Elt Ideal) x18)
    (fun n hn => ((cfg1.win 1).blk ⟨n, hn⟩).view.read (Elt Ideal) (Cert.ReferenceIdeal.Read.val_main_v64 (F := Ideal) x2 x17))
    (fun n hn => ((cfg1.win 2).blk ⟨n, hn⟩).view.read (Elt Ideal) (Cert.ReferenceIdeal.Read.val_main_v75 (F := Ideal) x2 x17 x18))
    (fun n hn p j h => read_seg x18 _ (win1_0.index ⟨n, hn⟩) (n % 16) (fun _ _ => rfl) (idx1_facts ⟨n, hn⟩).1 p j h)
    (fun n hn p q j h => read_rows (Cert.ReferenceIdeal.Read.val_main_v64 (F := Ideal) x2 x17) _ (win1_1.index ⟨n, hn⟩) (n % 16) (fun _ _ => rfl) (idx1_facts ⟨n, hn⟩).2.1 p q j h)
    (fun n hn p q r h => read_rows (Cert.ReferenceIdeal.Read.val_main_v75 (F := Ideal) x2 x17 x18) _ (win1_2.index ⟨n, hn⟩) (n / 16) (fun _ _ => rfl) (idx1_facts ⟨n, hn⟩).2.2.1 p q r h)
    acc cnt hacc hcnt t.val t.isLt ht

end Cert.Val

end
-- ==== Proof.Val.Final0.lean ====
import proofs.«401583_j19292993094061_1_alg».proof.Proof.HKernelIdeal.Reg0
import proofs.«401583_j19292993094061_1_alg».proof.Proof.Gen.ReferenceIdeal.Read
import proofs.«401583_j19292993094061_1_alg».proof.Proof.Val.SegMean
import Idealize.ShloMosaic.Lib.Pipeline.Value

noncomputable section

namespace Cert.Val

open Idealize.ShloMosaic Idealize.ShloMosaic.TcCoe Idealize.SL.Sem
open Cert.KernelIdeal Cert.KernelIdeal.Gen Cert.KernelIdeal.Hand

/-- Sixteen blocks of 1024 rows tile 16384 rows: row `r` lies in block `r / 1024`, and `p` names a point with that block. -/
theorem rowBlocks1024_cover {N : Nat} {fl : Fin N → Bool} {ix : Fin N → Fin 2 → Nat}
    {inb : ∀ t a, ix t a * S1024x64.size a + S1024x64.size a ≤ S16384x64.size a} {S : Fin N → Finset S16384x64.Idx}
    (hS : ∀ t, S t = (Rect.unit (s := S16384x64) (fun a => ix t a * S1024x64.size a) S1024x64.size (inb t)).set)
    (p : Fin 16 → Nat) (hp : ∀ q, ∃ h : p q < N, fl ⟨p q, h⟩ = true ∧ ix ⟨p q, h⟩ = ![q.val, 0])
    (i : S16384x64.Idx) : ∃ t, fl t = true ∧ i ∈ S t := by
  have h0 : (i 0).val < 16384 := (i 0).isLt
  have h1 : (i 1).val < 64 := (i 1).isLt
  obtain ⟨h, hf, ht⟩ := hp ⟨(i 0).val / 1024, by omega⟩
  refine ⟨_, hf, ?_⟩
  rw [hS, Rect.mem_set_unit, ht]
  refine Fin.forall_fin_two.2 ⟨?_, ?_⟩
  · show (i 0).val / 1024 * 1024 ≤ (i 0).val ∧ (i 0).val < (i 0).val / 1024 * 1024 + 1024; omega
  · show 0 * 64 ≤ (i 1).val ∧ (i 1).val < 0 * 64 + 64; omega

/-- A pair recursion that restarts where `n % K = 0`, as two sequences over all of ℕ obeying the same recursion. -/
theorem seqs_of_scan {N K : ℕ} {A B : Type} (sc : (n : ℕ) → n < N → A × B) (a0 : A) (b0 : B)
    (f : Fin N → A → A) (g : Fin N → B → B)
    (hr : ∀ t : Fin N, t.val % K = 0 → sc t.val t.isLt = (f t a0, g t b0))
    (hs : ∀ t : Fin N, t.val % K ≠ 0 → sc t.val t.isLt = (f t (sc (t.val - 1) (Nat.lt_of_le_of_lt (Nat.sub_le _ _) t.isLt)).1,
      g t (sc (t.val - 1) (Nat.lt_of_le_of_lt (Nat.sub_le _ _) t.isLt)).2)) :
    ∃ (acc : ℕ → A) (cnt : ℕ → B), (∀ t : Fin N, acc t.val = (sc t.val t.isLt).1 ∧ cnt t.val = (sc t.val t.isLt).2)
      ∧ (∀ n (hn : n < N), acc n = f ⟨n, hn⟩ (if n % K = 0 then a0 else acc (n - 1)))
      ∧ (∀ n (hn : n < N), cnt n = g ⟨n, hn⟩ (if n % K = 0 then b0 else cnt (n - 1))) := by
  have key : ∀ n (hn : n < N), sc n hn = (f ⟨n, hn⟩ (if n % K = 0 then a0 else if h : n - 1 < N then (sc (n - 1) h).1 else a0),
      g ⟨n, hn⟩ (if n % K = 0 then b0 else if h : n - 1 < N then (sc (n - 1) h).2 else b0)) := fun n hn => by
    have hp := Nat.lt_of_le_of_lt (Nat.sub_le n 1) hn
    by_cases h : n % K = 0
    · rw [if_pos h, if_pos h]; exact hr ⟨n, hn⟩ h
    · rw [if_neg h, if_neg h, dif_pos hp, dif_pos hp]; exact hs ⟨n, hn⟩ h
  exact ⟨fun n => if h : n < N then (sc n h).1 else a0, fun n => if h : n < N then (sc n h).2 else b0,
    fun t => ⟨dif_pos t.isLt, dif_pos t.isLt⟩,
    fun n hn => (dif_pos hn).trans (congrArg Prod.fst (key n hn)),
    fun n hn => (dif_pos hn).trans (congrArg Prod.snd (key n hn))⟩

theorem final0 (V : (c : Dev nD) → (b : Ref sig .tc) → Buf (Elt Ideal) ((c : Thread nD τ).loc b)) (c : Dev nD)
    (tab : (⟨Cert.ReferenceIdeal.S1000001x64, .f32⟩ : BufTy).Contents (Elt Ideal))
    (ids seg : (⟨Cert.ReferenceIdeal.S131072, .i32⟩ : BufTy).Contents (Elt Ideal))
    (hseg : V c main_arg15 = seg)
    (hrows : V c main_v7 = Cert.ReferenceIdeal.Read.val_main_v6 (F := Ideal) tab ids) :
    (dat0 (F := Ideal) V c).arrAt 2 cfg0.N = Cert.ReferenceIdeal.Read.val_main_v17 (F := Ideal) tab ids seg := by
  have hbseg : ∀ t : Fin cfg0.N, iblk0 V c 0 t = ((cfg0.win 0).blk t).view.read (Elt Ideal) seg := fun t => by
    unfold iblk0; rw [hseg]
  have hbrow : ∀ t : Fin cfg0.N, iblk0 V c 1 t
      = ((cfg0.win 1).blk t).view.read (Elt Ideal) (Cert.ReferenceIdeal.Read.val_main_v6 (F := Ideal) tab ids) := fun t => by
    unfold iblk0; rw [hrows]
  obtain ⟨acc, cnt, hat, hacc, hcnt⟩ := seqs_of_scan (K := 32) (sc0 V c) (k0_pay1 (F := Ideal)) (k0_pay2 (F := Ideal))
    (fun t => k0_pay4 (grid0.coords t) (iblk0 V c 0 t) (iblk0 V c 1 t))
    (fun t => k0_pay5 (grid0.coords t) (iblk0 V c 0 t) (iblk0 V c 1 t)) (sc0_reset V c) (sc0_step V c)
  simp only [hbseg, hbrow] at hacc hcnt
  have hflushed : ∀ t : Fin cfg0.N, (cfg0.win 2).flush t = true →
      (dat0 (F := Ideal) V c).flushed 2 t
        = ((cfg0.win 2).blk t).view.read (Elt Ideal) (Cert.ReferenceIdeal.Read.val_main_v17 (F := Ideal) tab ids seg) := fun t hf => by
    rw [Pipeline.Dat.flushed, after0_2]
    unfold out0_2
    rw [← (hat t).1, ← (hat t).2]
    exact segmean0_block tab ids seg acc cnt hacc hcnt t ((flush0_2 t).mp hf)
  exact (dat0 (F := Ideal) V c).arrAt_eq_of_cover 2 _ hflushed
    (rowBlocks1024_cover (fun _ => View.set_slice_whole _ _) (fun q => q.val * 32 + 31) (by decide +kernel))

end Cert.Val

end
-- ==== Proof.Val.Final1.lean ====
import proofs.«401583_j19292993094061_1_alg».proof.Proof.HKernelIdeal.Reg1
import proofs.«401583_j19292993094061_1_alg».proof.Proof.Val.Final0

noncomputable section

namespace Cert.Val

open Idealize.ShloMosaic Idealize.ShloMosaic.TcCoe Idealize.SL.Sem
open Cert.KernelIdeal Cert.KernelIdeal.Gen Cert.KernelIdeal.Hand

theorem final1 (V : (c : Dev nD) → (b : Ref sig .tc) → Buf (Elt Ideal) ((c : Thread nD τ).loc b)) (c : Dev nD)
    (tab : (⟨Cert.ReferenceIdeal.S1001x64, .f32⟩ : BufTy).Contents (Elt Ideal))
    (ids seg : (⟨Cert.ReferenceIdeal.S65536, .i32⟩ : BufTy).Contents (Elt Ideal))
    (hseg : V c main_arg18 = seg)
    (hrows : V c main_v29 = Cert.ReferenceIdeal.Read.val_main_v64 (F := Ideal) tab ids) :
    (dat1 (F := Ideal) V c).arrAt 2 cfg1.N = Cert.ReferenceIdeal.Read.val_main_v75 (F := Ideal) tab ids seg := by
  have hbseg : ∀ t : Fin cfg1.N, iblk1 V c 0 t = ((cfg1.win 0).blk t).view.read (Elt Ideal) seg := fun t => by
    unfold iblk1; rw [hseg]
  have hbrow : ∀ t : Fin cfg1.N, iblk1 V c 1 t
      = ((cfg1.win 1).blk t).view.read (Elt Ideal) (Cert.ReferenceIdeal.Read.val_main_v64 (F := Ideal) tab ids) := fun t => by
    unfold iblk1; rw [hrows]
  obtain ⟨acc, cnt, hat, hacc, hcnt⟩ := seqs_of_scan (K := 16) (sc1 V c) (k1_pay1 (F := Ideal)) (k1_pay2 (F := Ideal))
    (fun t => k1_pay4 (grid1.coords t) (iblk1 V c 0 t) (iblk1 V c 1 t))
    (fun t => k1_pay5 (grid1.coords t) (iblk1 V c 0 t) (iblk1 V c 1 t)) (sc1_reset V c) (sc1_step V c)
  simp only [hbseg, hbrow] at hacc hcnt
  have hflushed : ∀ t : Fin cfg1.N, (cfg1.win 2).flush t = true →
      (dat1 (F := Ideal) V c).flushed 2 t
        = ((cfg1.win 2).blk t).view.read (Elt Ideal) (Cert.ReferenceIdeal.Read.val_main_v75 (F := Ideal) tab ids seg) := fun t hf => by
    rw [Pipeline.Dat.flushed, after1_2]
    unfold out1_2
    rw [← (hat t).1, ← (hat t).2]
    exact segmean1_block tab ids seg acc cnt hacc hcnt t ((flush1_2 t).mp hf)
  exact (dat1 (F := Ideal) V c).arrAt_eq_of_cover 2 _ hflushed
    (rowBlocks1024_cover (fun _ => View.set_slice_whole _ _) (fun q => q.val * 16 + 15) (by decide +kernel))

end Cert.Val

end
-- ==== Proof.Val.UserTower.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.ReferenceIdeal.Read
import proofs.«401583_j19292993094061_1_alg».proof.Proof.Val.TowerLib

noncomputable section

namespace Cert.Val

open Idealize.ShloMosaic Idealize.ShloMosaic.TcCoe Idealize.SL.Sem
open Cert.KernelIdeal Cert.KernelIdeal.Gen
open Idealize.ShloMosaic.ValueIdx

def catRow (a b : Fin 64 → EReal) (k : Fin 128) : EReal :=
  if h : k.val < 64 then a ⟨k.val, h⟩ else b ⟨k.val - 64, by have := k.isLt; omega⟩

theorem concat_cols64_apply {n : Nat} (a b : (⟨2, ![n, 64]⟩ : Shape).Idx → EReal)
    (h : Shape.Concatenates [(⟨2, ![n, 64]⟩ : Shape), ⟨2, ![n, 64]⟩] ⟨2, ![n, 128]⟩ 1) (p : Fin n) (k : Fin 128) :
    concatenate ⟨2, ![n, 128]⟩ 1 [⟨⟨2, ![n, 64]⟩, a⟩, ⟨⟨2, ![n, 64]⟩, b⟩] h (ix2 p k)
      = catRow (fun c => a (ix2 p c)) (fun c => b (ix2 p c)) k := by
  unfold catRow
  split
  · next hk =>
    exact concatenate_pair_apply_left 1 a b h (ix2 p k) rfl (ix2 p ⟨k.val, hk⟩) (fun ax => by
      match ax with
      | ⟨0, _⟩ => rfl
      | ⟨1, _⟩ => rfl)
  · next hk =>
    exact concatenate_pair_apply_right 1 a b h (ix2 p k) rfl rfl (ix2 p ⟨k.val - 64, by have := k.isLt; omega⟩) (fun ax => by
      match ax with
      | ⟨0, _⟩ => exact fun _ => rfl
      | ⟨1, _⟩ => exact fun hne => absurd rfl hne)
      (by show (k.val - 64) + 64 = k.val; omega)

theorem gridN : grid2.N = 8 := by decide

theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

theorem idx_weights : ∀ t : Fin cfg2.N,
    (∀ a, win2_2.index t a = 0) ∧ (∀ a, win2_3.index t a = 0) ∧ (∀ a, win2_4.index t a = 0) ∧ (∀ a, win2_5.index t a = 0) :=
  (by decide +kernel : ∀ t : Fin grid2.N, _)

def rowOf (t : Fin cfg2.N) (p : Fin 2048) : Fin 16384 :=
  ⟨t.val * 2048 + p.val, by have := t.isLt; have h8 : cfg2.N = 8 := gridN; have := p.isLt; omega⟩

theorem blk2_eq (A : S128x256.Idx → EReal) (t : Fin cfg2.N) :
    (((cfg2.win 2).blk t).view.read (Elt Ideal) A : Vec Ideal S128x256 .f32) = A :=
  read_whole A _ (win2_2.index t) (fun _ _ => rfl) (idx_weights t).1
theorem blk3_eq (A : S256.Idx → EReal) (t : Fin cfg2.N) :
    (((cfg2.win 3).blk t).view.read (Elt Ideal) A : Vec Ideal S256 .f32) = A :=
  read_whole A _ (win2_3.index t) (fun _ _ => rfl) (idx_weights t).2.1
theorem blk4_eq (A : S256x64.Idx → EReal) (t : Fin cfg2.N) :
    (((cfg2.win 4).blk t).view.read (Elt Ideal) A : Vec Ideal S256x64 .f32) = A :=
  read_whole A _ (win2_4.index t) (fun _ _ => rfl) (idx_weights t).2.2.1
theorem blk5_eq (A : S64.Idx → EReal) (t : Fin cfg2.N) :
    (((cfg2.win 5).blk t).view.read (Elt Ideal) A : Vec Ideal S64 .f32) = A :=
  read_whole A _ (win2_5.index t) (fun _ _ => rfl) (idx_weights t).2.2.2

section Blocks
open Cert.ReferenceIdeal.Read

variable (x0 : (⟨Cert.ReferenceIdeal.S1000001x64, .f32⟩ : BufTy).Contents (Elt Ideal)) (x3 : (⟨Cert.ReferenceIdeal.S100001x64, .f32⟩ : BufTy).Contents (Elt Ideal))
  (x5 : (⟨Cert.ReferenceIdeal.S128x256, .f32⟩ : BufTy).Contents (Elt Ideal)) (x6 : (⟨Cert.ReferenceIdeal.S256, .f32⟩ : BufTy).Contents (Elt Ideal))
  (x7 : (⟨Cert.ReferenceIdeal.S256x64, .f32⟩ : BufTy).Contents (Elt Ideal)) (x8 : (⟨Cert.ReferenceIdeal.S64, .f32⟩ : BufTy).Contents (Elt Ideal))
  (x13 : (⟨Cert.ReferenceIdeal.S16384, .i32⟩ : BufTy).Contents (Elt Ideal)) (x14 x15 : (⟨Cert.ReferenceIdeal.S131072, .i32⟩ : BufTy).Contents (Elt Ideal))

theorem userTower_out_block (t : Fin cfg2.N) :
    k2_pay3 (F := Ideal)
        (((cfg2.win 0).blk t).view.read (Elt Ideal) (val_main_v17 (F := Ideal) x0 x14 x15))
        (((cfg2.win 1).blk t).view.read (Elt Ideal) (val_main_v24 (F := Ideal) x3 x13))
        (((cfg2.win 2).blk t).view.read (Elt Ideal) x5)
        (((cfg2.win 3).blk t).view.read (Elt Ideal) x6)
        (((cfg2.win 4).blk t).view.read (Elt Ideal) x7)
        (((cfg2.win 5).blk t).view.read (Elt Ideal) x8)
      = ((cfg2.win 6).blk t).view.read (Elt Ideal) (val_main_v42 (F := Ideal) x0 x3 x5 x6 x7 x8 x13 x14 x15) := by
  funext j
  obtain ⟨p, q, rfl⟩ : ∃ (p : Fin 2048) (q : Fin 64), j = ix2 p q := ⟨j 0, j 1, eq_ix2 j⟩
  rw [blk2_eq, blk3_eq, blk4_eq, blk5_eq]
  refine ((l2norm_apply _ p q).trans (congrArg (fun y => l2Row y q) (funext fun k =>
    mlp_apply dot_S2048x128_S128x256_S2048x256_1_0_0_1_n_n rfl _ _ _ _ _ p k))).trans ?_
  refine (((read_rows _ _ (win2_6.index t) t.val (fun _ _ => rfl) (idx_rows t).2.2.1 p q (rowOf t p) rfl).trans
    ((refL2_apply _ _ q).trans (congrArg (fun y => l2Row y q) (funext fun k =>
      refMlp_apply Cert.ReferenceIdeal.dot_S16384x128_S128x256_S16384x256_1_0_0_1_n_n rfl _ _ _ _ _ _ k)))).trans ?_).symm
  refine congrArg (fun x => l2Row (mlpRow x x5 x6 x7 x8) q) (funext fun k => ?_)
  unfold val_main_v25 k2_pay2
  rw [concat_cols64_apply, concat_cols64_apply, shapeCast_self, shapeCast_self]
  refine congrArg₂ (fun a b => catRow a b k) (funext fun c => ?_) (funext fun c => ?_)
  · exact (read_rows _ _ (win2_0.index t) t.val (fun _ _ => rfl) (idx_rows t).1 p c (rowOf t p) rfl).symm
  · exact (read_rows _ _ (win2_1.index t) t.val (fun _ _ => rfl) (idx_rows t).2.1 p c (rowOf t p) rfl).symm

theorem userTower_dat_block (t : Fin cfg2.N) :
    k2_pay1 (F := Ideal)
        (k2_pay2 (((cfg2.win 1).blk t).view.read (Elt Ideal) (val_main_v24 (F := Ideal) x3 x13)))
        (k2_pay4 (((cfg2.win 1).blk t).view.read (Elt Ideal) (val_main_v24 (F := Ideal) x3 x13)))
      = ((cfg2.win 7).blk t).view.read (Elt Ideal) (val_main_v50 (F := Ideal) x3 x13) := by
  funext j
  obtain ⟨p, q, rfl⟩ : ∃ (p : Fin 2048) (q : Fin 64), j = ix2 p q := ⟨j 0, j 1, eq_ix2 j⟩
  refine (l2norm_apply _ p q).trans ?_
  refine (((read_rows _ _ (win2_7.index t) t.val (fun _ _ => rfl) (idx_rows t).2.2.2 p q (rowOf t p) rfl).trans (refL2_apply _ _ q)).trans ?_).symm
  refine congrArg (fun y => l2Row y q) (funext fun k => ?_)
  unfold k2_pay2
  rw [shapeCast_self]
  exact (read_rows _ _ (win2_1.index t) t.val (fun _ _ => rfl) (idx_rows t).2.1 p k (rowOf t p) rfl).symm

end Blocks

end Cert.Val

end
-- ==== Proof.Val.Final2.lean ====
import proofs.«401583_j19292993094061_1_alg».proof.Proof.HKernelIdeal.Reg2
import proofs.«401583_j19292993094061_1_alg».proof.Proof.Gen.ReferenceIdeal.Read
import proofs.«401583_j19292993094061_1_alg».proof.Proof.Val.UserTower
import Idealize.ShloMosaic.Lib.Pipeline.Value
import Idealize.ShloMosaic.PureOps.Ideal.Laws

noncomputable section

namespace Cert.Val

open Idealize.ShloMosaic Idealize.ShloMosaic.TcCoe Idealize.SL.Sem
open Cert.KernelIdeal Cert.KernelIdeal.Gen Cert.KernelIdeal.Hand

variable (V : (c : Dev nD) → (b : Ref sig .tc) → Buf (Elt Ideal) ((c : Thread nD τ).loc b))

theorem origin2_2 : (![0, 0] : Fin 2 → Nat) = fun _ => 0 := funext fun a => by fin_cases a <;> rfl
theorem origin2_1 : (![0] : Fin 1 → Nat) = fun _ => 0 := funext fun a => by fin_cases a <;> rfl

/-- Eight blocks of 2048 rows tile 16384 rows: row `r` lies in block `r / 2048`, and `honto` gives a `t` with that block index. -/
theorem rowBlocks_cover {N : Nat} {fl : Fin N → Bool} {ix : Fin N → Fin 2 → Nat}
    {inb : ∀ t a, ix t a * S2048x64.size a + S2048x64.size a ≤ S16384x64.size a} {S : Fin N → Finset S16384x64.Idx}
    (hf : ∀ t, fl t = true) (hS : ∀ t, S t = (Rect.unit (s := S16384x64) (fun a => ix t a * S2048x64.size a) S2048x64.size (inb t)).set)
    (honto : ∀ q : Fin 8, ∃ t, ix t = ![q.val, 0]) (i : S16384x64.Idx) : ∃ t, fl t = true ∧ i ∈ S t := by
  have h0 : (i 0).val < 16384 := (i 0).isLt
  have h1 : (i 1).val < 64 := (i 1).isLt
  obtain ⟨t, ht⟩ := honto ⟨(i 0).val / 2048, by omega⟩
  refine ⟨t, hf t, ?_⟩
  rw [hS, Rect.mem_set_unit, ht]
  refine Fin.forall_fin_two.2 ⟨?_, ?_⟩
  · show (i 0).val / 2048 * 2048 ≤ (i 0).val ∧ (i 0).val < (i 0).val / 2048 * 2048 + 2048; omega
  · show 0 * 64 ≤ (i 1).val ∧ (i 1).val < 0 * 64 + 64; omega

variable (c : Dev nD)
  (x0 : (⟨Cert.ReferenceIdeal.S1000001x64, .f32⟩ : BufTy).Contents (Elt Ideal))
  (x3 : (⟨Cert.ReferenceIdeal.S100001x64, .f32⟩ : BufTy).Contents (Elt Ideal))
  (x5 : (⟨Cert.ReferenceIdeal.S128x256, .f32⟩ : BufTy).Contents (Elt Ideal))
  (x6 : (⟨Cert.ReferenceIdeal.S256, .f32⟩ : BufTy).Contents (Elt Ideal))
  (x7 : (⟨Cert.ReferenceIdeal.S256x64, .f32⟩ : BufTy).Contents (Elt Ideal))
  (x8 : (⟨Cert.ReferenceIdeal.S64, .f32⟩ : BufTy).Contents (Elt Ideal))
  (x13 : (⟨Cert.ReferenceIdeal.S16384, .i32⟩ : BufTy).Contents (Elt Ideal))
  (x14 : (⟨Cert.ReferenceIdeal.S131072, .i32⟩ : BufTy).Contents (Elt Ideal))
  (x15 : (⟨Cert.ReferenceIdeal.S131072, .i32⟩ : BufTy).Contents (Elt Ideal))
  (h0 : V c main_v37 = ReferenceIdeal.Read.val_main_v17 (F := Ideal) x0 x14 x15)
  (h1 : V c main_v14 = ReferenceIdeal.Read.val_main_v24 (F := Ideal) x3 x13)
  (h2 : V c main_arg5 = x5)
  (h3 : V c main_arg6 = x6)
  (h4 : V c main_arg7 = x7)
  (h5 : V c main_arg8 = x8)

include h0 h1 h2 h3 h4 h5 in
set_option maxHeartbeats 1000000 in
theorem final2_6 : (dat2 (F := Ideal) V c).arrAt 6 cfg2.N = ReferenceIdeal.Read.val_main_v42 (F := Ideal) x0 x3 x5 x6 x7 x8 x13 x14 x15 :=
  (dat2 V c).arrAt_eq_of_cover 6 _ (fun t _ => by
    rw [Pipeline.Dat.flushed, after2_6]
    unfold out2_6 iblk2
    rw [View.canon_unit_zero origin2_2]
    simp only [View.ld_unit_zero (S := S2048x64) origin2_2, View.ld_unit_zero (S := S128x256) origin2_2, View.ld_unit_zero (S := S256x64) origin2_2,
      View.ld_unit_zero (S := S256) origin2_1, View.ld_unit_zero (S := S64) origin2_1]
    rw [h0, h1, h2, h3, h4, h5]
    exact userTower_out_block x0 x3 x5 x6 x7 x8 x13 x14 x15 t)
    (rowBlocks_cover flush2_6 (fun _ => View.set_slice_whole _ _) (by decide +kernel))

include h1 in
set_option maxHeartbeats 1000000 in
theorem final2_7 : (dat2 (F := Ideal) V c).arrAt 7 cfg2.N = ReferenceIdeal.Read.val_main_v50 (F := Ideal) x3 x13 :=
  (dat2 V c).arrAt_eq_of_cover 7 _ (fun t _ => by
    rw [Pipeline.Dat.flushed, after2_7]
    unfold out2_7 iblk2
    rw [View.canon_unit_zero origin2_2, View.ld_unit_zero (S := S2048x64) origin2_2, h1]
    exact userTower_dat_block x3 x13 t)
    (rowBlocks_cover flush2_7 (fun _ => View.set_slice_whole _ _) (by decide +kernel))

end Cert.Val

end
-- ==== Proof.Val.ItemTower.lean ====
import proofs.«401583_j19292993094061_1_alg».proof.Proof.Gen.KernelIdeal.Skeleton
import proofs.«401583_j19292993094061_1_alg».proof.Proof.Gen.KernelIdeal.Points
import proofs.«401583_j19292993094061_1_alg».proof.Proof.Gen.ReferenceIdeal.Read
import proofs.«401583_j19292993094061_1_alg».proof.Proof.Val.TowerLib

noncomputable section

namespace Cert.Val

open Idealize.ShloMosaic Idealize.ShloMosaic.TcCoe Idealize.SL.Sem
open Idealize.ShloMosaic.ValueIdx
open scoped BigOperators

namespace Item

def cat3 {α : Type} (a b c : Fin 64 → α) (k : Fin 192) : α :=
  if h : k.val < 64 then a ⟨k.val, h⟩
  else if h2 : k.val < 128 then b ⟨k.val - 64, by omega⟩
  else c ⟨k.val - 128, by have := k.isLt; omega⟩

theorem concat3_apply {α : Type} {n : Nat} (a b c : (⟨2, ![n, 64]⟩ : Shape).Idx → α)
    (h : Shape.Concatenates [(⟨2, ![n, 64]⟩ : Shape), ⟨2, ![n, 64]⟩, ⟨2, ![n, 64]⟩] ⟨2, ![n, 192]⟩ 1)
    (p : Fin n) (k : Fin 192) :
    concatenate ⟨2, ![n, 192]⟩ 1 [⟨⟨2, ![n, 64]⟩, a⟩, ⟨⟨2, ![n, 64]⟩, b⟩, ⟨⟨2, ![n, 64]⟩, c⟩] h (ix2 p k)
      = cat3 (fun j => a (ix2 p j)) (fun j => b (ix2 p j)) (fun j => c (ix2 p j)) k := by
  have hk := k.isLt
  have P := fun i hi x hx o ho (y : Fin 64) => concatenate_apply_piece 1 [⟨⟨2, ![n, 64]⟩, a⟩, ⟨⟨2, ![n, 64]⟩, b⟩, ⟨⟨2, ![n, 64]⟩, c⟩] h
    (ix2 p k) i hi ⟨2, ![n, 64]⟩ x hx rfl o ho (ix2 p y) fun b hb => match b with
      | ⟨0, _⟩ => rfl
      | ⟨1, _⟩ => absurd rfl hb
  unfold cat3
  split
  · exact P 0 (by show 0 < 3; omega) a rfl 0 rfl _ (by show 0 + k.val = k.val; omega)
  split
  · exact P 1 (by show 1 < 3; omega) b rfl 64 rfl _ (by show 64 + (k.val - 64) = k.val; omega)
  · exact P 2 (by show 2 < 3; omega) c rfl 128 rfl _ (by show 128 + (k.val - 128) = k.val; omega)

-- Two three-piece rows agree when their pieces agree.
theorem concat3_congr {α : Type} {m n : Nat} (a b c : (⟨2, ![m, 64]⟩ : Shape).Idx → α) (a' b' c' : (⟨2, ![n, 64]⟩ : Shape).Idx → α)
    (h : Shape.Concatenates [(⟨2, ![m, 64]⟩ : Shape), ⟨2, ![m, 64]⟩, ⟨2, ![m, 64]⟩] ⟨2, ![m, 192]⟩ 1)
    (h' : Shape.Concatenates [(⟨2, ![n, 64]⟩ : Shape), ⟨2, ![n, 64]⟩, ⟨2, ![n, 64]⟩] ⟨2, ![n, 192]⟩ 1) (p : Fin m) (r : Fin n)
    (ha : ∀ j, a (ix2 p j) = a' (ix2 r j)) (hb : ∀ j, b (ix2 p j) = b' (ix2 r j)) (hc : ∀ j, c (ix2 p j) = c' (ix2 r j)) (k : Fin 192) :
    concatenate ⟨2, ![m, 192]⟩ 1 [⟨⟨2, ![m, 64]⟩, a⟩, ⟨⟨2, ![m, 64]⟩, b⟩, ⟨⟨2, ![m, 64]⟩, c⟩] h (ix2 p k)
      = concatenate ⟨2, ![n, 192]⟩ 1 [⟨⟨2, ![n, 64]⟩, a'⟩, ⟨⟨2, ![n, 64]⟩, b'⟩, ⟨⟨2, ![n, 64]⟩, c'⟩] h' (ix2 r k) := by
  rw [concat3_apply, concat3_apply, funext ha, funext hb, funext hc]

end Item

section Join

open Cert.KernelIdeal Cert.KernelIdeal.Gen Cert.ReferenceIdeal.Read
open Item

variable (x1 : (⟨S100001x64, .f32⟩ : BufTy).Contents (Elt Ideal)) (x2 : (⟨S1001x64, .f32⟩ : BufTy).Contents (Elt Ideal))
  (x4 : (⟨S100001x64, .f32⟩ : BufTy).Contents (Elt Ideal)) (x9 : (⟨S192x256, .f32⟩ : BufTy).Contents (Elt Ideal))
  (x10 : (⟨S256, .f32⟩ : BufTy).Contents (Elt Ideal)) (x11 : (⟨S256x64, .f32⟩ : BufTy).Contents (Elt Ideal))
  (x12 : (⟨S64, .f32⟩ : BufTy).Contents (Elt Ideal)) (x16 : (⟨S16384, .i32⟩ : BufTy).Contents (Elt Ideal))
  (x17 x18 : (⟨S65536, .i32⟩ : BufTy).Contents (Elt Ideal)) (t : Fin cfg3.N)

namespace Item

theorem hN3 : cfg3.N = 8 := by decide

theorem idx3_rows : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_7.index t (0 : Fin 2) = t.val ∧ win3_7.index t (1 : Fin 2) = 0)
    ∧ (win3_8.index t (0 : Fin 2) = t.val ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

theorem idx3_whole : ∀ t : Fin cfg3.N,
    (∀ a, win3_3.index t a = 0) ∧ (∀ a, win3_4.index t a = 0) ∧ (∀ a, win3_5.index t a = 0) ∧ (∀ a, win3_6.index t a = 0) :=
  (by decide +kernel : ∀ t : Fin grid3.N, _)

theorem blk3_eq (A : (⟨S192x256, .f32⟩ : BufTy).Contents (Elt Ideal)) (t : Fin cfg3.N) :
    ((cfg3.win 3).blk t).view.read (Elt Ideal) A = A := read_whole A _ (win3_3.index t) (fun _ _ => rfl) (idx3_whole t).1
theorem blk4_eq (A : (⟨S256, .f32⟩ : BufTy).Contents (Elt Ideal)) (t : Fin cfg3.N) :
    ((cfg3.win 4).blk t).view.read (Elt Ideal) A = A := read_whole A _ (win3_4.index t) (fun _ _ => rfl) (idx3_whole t).2.1
theorem blk5_eq (A : (⟨S256x64, .f32⟩ : BufTy).Contents (Elt Ideal)) (t : Fin cfg3.N) :
    ((cfg3.win 5).blk t).view.read (Elt Ideal) A = A := read_whole A _ (win3_5.index t) (fun _ _ => rfl) (idx3_whole t).2.2.1
theorem blk6_eq (A : (⟨S64, .f32⟩ : BufTy).Contents (Elt Ideal)) (t : Fin cfg3.N) :
    ((cfg3.win 6).blk t).view.read (Elt Ideal) A = A := read_whole A _ (win3_6.index t) (fun _ _ => rfl) (idx3_whole t).2.2.2

def rowOf (t : Fin cfg3.N) (p : Fin 2048) : Fin 16384 :=
  ⟨t.val * 2048 + p.val, by have h1 := t.isLt; have h2 := hN3; have h3 := p.isLt; omega⟩

-- Rows of the three input blocks are rows of the gathered arrays; the zero piece is zero on both sides.
theorem row0 (p : Fin 2048) (j : Fin 64) :
    k3_pay2 (F := Ideal) (((cfg3.win 0).blk t).view.read (Elt Ideal) (val_main_v57 (F := Ideal) x1 x16)) (ix2 p j) = val_main_v57 (F := Ideal) x1 x16 (ix2 (rowOf t p) j) := by
  unfold k3_pay2
  rw [shapeCast_self]
  exact read_rows (val_main_v57 (F := Ideal) x1 x16) _ (win3_0.index t) t.val (fun _ _ => rfl) (idx3_rows t).1 p j (rowOf t p) rfl
theorem row1 (p : Fin 2048) (j : Fin 64) :
    k3_pay3 (F := Ideal) (((cfg3.win 1).blk t).view.read (Elt Ideal) (val_main_v75 (F := Ideal) x2 x17 x18)) (ix2 p j) = val_main_v75 (F := Ideal) x2 x17 x18 (ix2 (rowOf t p) j) := by
  unfold k3_pay3
  rw [shapeCast_self]
  exact read_rows (val_main_v75 (F := Ideal) x2 x17 x18) _ (win3_1.index t) t.val (fun _ _ => rfl) (idx3_rows t).2.1 p j (rowOf t p) rfl
theorem row2 (p : Fin 2048) (j : Fin 64) :
    k3_pay4 (F := Ideal) (((cfg3.win 2).blk t).view.read (Elt Ideal) (val_main_v82 (F := Ideal) x4 x16)) (ix2 p j) = val_main_v82 (F := Ideal) x4 x16 (ix2 (rowOf t p) j) := by
  unfold k3_pay4
  rw [shapeCast_self]
  exact read_rows (val_main_v82 (F := Ideal) x4 x16) _ (win3_2.index t) t.val (fun _ _ => rfl) (idx3_rows t).2.2.1 p j (rowOf t p) rfl
theorem rowZ (p : Fin 2048) (j : Fin 64) : k3_pay5 (F := Ideal) (ix2 p j) = val_main_v83 (F := Ideal) (ix2 (rowOf t p) j) :=
  ((val_main_v83_apply _).trans (val_main_cst_20_apply _)).symm

-- One row of a tower's output block: both sides are the normalised two-layer map of their 192 inputs.
theorem tower_row {Xk : FVec Ideal S2048x192 .f32} {Xr : FVec Ideal Cert.ReferenceIdeal.S16384x192 .f32}
    {Z : FVec Ideal S2048x64 .f32} {V : FVec Ideal Cert.ReferenceIdeal.S16384x64 .f32} (p : Fin 2048) (q : Fin 64)
    (hZ : Z (ix2 p q) = l2Row (mlpRow (fun k => Xk (ix2 p k)) x9 x10 x11 x12) q)
    (hV : V (ix2 (rowOf t p) q) = l2Row (mlpRow (fun k => Xr (ix2 (rowOf t p) k)) x9 x10 x11 x12) q)
    (hX : ∀ k, Xk (ix2 p k) = Xr (ix2 (rowOf t p) k)) : Z (ix2 p q) = V (ix2 (rowOf t p) q) := by
  rw [hZ, hV, funext hX]

end Item

theorem itemTower_7_block :
    k3_pay11 (F := Ideal) (k3_pay8 (F := Ideal) (((cfg3.win 0).blk t).view.read (Elt Ideal) (Cert.ReferenceIdeal.Read.val_main_v57 (F := Ideal) x1 x16)) (((cfg3.win 1).blk t).view.read (Elt Ideal) (Cert.ReferenceIdeal.Read.val_main_v75 (F := Ideal) x2 x17 x18)) (((cfg3.win 2).blk t).view.read (Elt Ideal) (Cert.ReferenceIdeal.Read.val_main_v82 (F := Ideal) x4 x16))
        (((cfg3.win 3).blk t).view.read (Elt Ideal) x9) (((cfg3.win 4).blk t).view.read (Elt Ideal) x10) (((cfg3.win 5).blk t).view.read (Elt Ideal) x11) (((cfg3.win 6).blk t).view.read (Elt Ideal) x12))
      = ((cfg3.win 7).blk t).view.read (Elt Ideal) (Cert.ReferenceIdeal.Read.val_main_v121 (F := Ideal) x1 x2 x4 x9 x10 x11 x12 x16 x17 x18) := by
  funext y
  obtain ⟨p, q, rfl⟩ : ∃ (p : Fin 2048) (q : Fin 64), y = ix2 p q := ⟨y 0, y 1, eq_ix2 y⟩
  rw [blk3_eq, blk4_eq, blk5_eq, blk6_eq]
  refine ((read_rows (val_main_v121 (F := Ideal) x1 x2 x4 x9 x10 x11 x12 x16 x17 x18) _ (win3_7.index t) t.val (fun _ _ => rfl) (idx3_rows t).2.2.2.1 p q (rowOf t p) rfl).trans ?_).symm
  refine (tower_row x9 x10 x11 x12 t p q
    ((l2norm_apply _ p q).trans (congrArg (fun y => l2Row y q) (funext fun k =>
      mlp_apply dot_S2048x192_S192x256_S2048x256_1_0_0_1_n_n rfl _ _ _ _ _ p k)))
    ((refL2_apply _ _ q).trans (congrArg (fun y => l2Row y q) (funext fun k =>
      refMlp_apply Cert.ReferenceIdeal.dot_S16384x192_S192x256_S16384x256_1_0_0_1_n_n rfl _ _ _ _ _ _ k))) ?_).symm
  exact concat3_congr _ _ _ _ _ _ _ _ p (rowOf t p) (row0 x1 x16 t p) (row1 x2 x17 x18 t p) (row2 x4 x16 t p)

theorem itemTower_8_block :
    k3_pay1 (F := Ideal) (k3_pay4 (F := Ideal) (((cfg3.win 2).blk t).view.read (Elt Ideal) (Cert.ReferenceIdeal.Read.val_main_v82 (F := Ideal) x4 x16))) (k3_pay14 (F := Ideal) (k3_pay4 (F := Ideal) (((cfg3.win 2).blk t).view.read (Elt Ideal) (Cert.ReferenceIdeal.Read.val_main_v82 (F := Ideal) x4 x16))))
      = ((cfg3.win 8).blk t).view.read (Elt Ideal) (Cert.ReferenceIdeal.Read.val_main_v129 (F := Ideal) x4 x16) := by
  funext y
  obtain ⟨p, q, rfl⟩ : ∃ (p : Fin 2048) (q : Fin 64), y = ix2 p q := ⟨y 0, y 1, eq_ix2 y⟩
  refine (l2norm_apply _ p q).trans ?_
  refine (((read_rows (val_main_v129 (F := Ideal) x4 x16) _ (win3_8.index t) t.val (fun _ _ => rfl) (idx3_rows t).2.2.2.2.1 p q (rowOf t p) rfl).trans
    (refL2_apply _ _ q)).trans ?_).symm
  exact congrArg (fun y => l2Row y q) (funext fun k => (row2 x4 x16 t p k).symm)

theorem itemTower_9_block :
    k3_pay12 (F := Ideal) (k3_pay9 (F := Ideal) (((cfg3.win 0).blk t).view.read (Elt Ideal) (Cert.ReferenceIdeal.Read.val_main_v57 (F := Ideal) x1 x16)) (((cfg3.win 2).blk t).view.read (Elt Ideal) (Cert.ReferenceIdeal.Read.val_main_v82 (F := Ideal) x4 x16))
        (((cfg3.win 3).blk t).view.read (Elt Ideal) x9) (((cfg3.win 4).blk t).view.read (Elt Ideal) x10) (((cfg3.win 5).blk t).view.read (Elt Ideal) x11) (((cfg3.win 6).blk t).view.read (Elt Ideal) x12))
      = ((cfg3.win 9).blk t).view.read (Elt Ideal) (Cert.ReferenceIdeal.Read.val_main_v137 (F := Ideal) x1 x4 x9 x10 x11 x12 x16) := by
  funext y
  obtain ⟨p, q, rfl⟩ : ∃ (p : Fin 2048) (q : Fin 64), y = ix2 p q := ⟨y 0, y 1, eq_ix2 y⟩
  rw [blk3_eq, blk4_eq, blk5_eq, blk6_eq]
  refine ((read_rows (val_main_v137 (F := Ideal) x1 x4 x9 x10 x11 x12 x16) _ (win3_9.index t) t.val (fun _ _ => rfl) (idx3_rows t).2.2.2.2.2.1 p q (rowOf t p) rfl).trans ?_).symm
  refine (tower_row x9 x10 x11 x12 t p q
    ((l2norm_apply _ p q).trans (congrArg (fun y => l2Row y q) (funext fun k =>
      mlp_apply dot_S2048x192_S192x256_S2048x256_1_0_0_1_n_n rfl _ _ _ _ _ p k)))
    ((refL2_apply _ _ q).trans (congrArg (fun y => l2Row y q) (funext fun k =>
      refMlp_apply Cert.ReferenceIdeal.dot_S16384x192_S192x256_S16384x256_1_0_0_1_n_n rfl _ _ _ _ _ _ k))) ?_).symm
  exact concat3_congr _ _ _ _ _ _ _ _ p (rowOf t p) (row0 x1 x16 t p) (rowZ t p) (row2 x4 x16 t p)

theorem itemTower_10_block :
    k3_pay13 (F := Ideal) (k3_pay6 (F := Ideal) (((cfg3.win 3).blk t).view.read (Elt Ideal) x9)) (((cfg3.win 4).blk t).view.read (Elt Ideal) x10) (k3_pay7 (F := Ideal) (((cfg3.win 5).blk t).view.read (Elt Ideal) x11)) (((cfg3.win 6).blk t).view.read (Elt Ideal) x12)
        (k3_pay10 (F := Ideal) (((cfg3.win 1).blk t).view.read (Elt Ideal) (Cert.ReferenceIdeal.Read.val_main_v75 (F := Ideal) x2 x17 x18)) (((cfg3.win 2).blk t).view.read (Elt Ideal) (Cert.ReferenceIdeal.Read.val_main_v82 (F := Ideal) x4 x16)))
      = ((cfg3.win 10).blk t).view.read (Elt Ideal) (Cert.ReferenceIdeal.Read.val_main_v145 (F := Ideal) x2 x4 x9 x10 x11 x12 x16 x17 x18) := by
  funext y
  obtain ⟨p, q, rfl⟩ : ∃ (p : Fin 2048) (q : Fin 64), y = ix2 p q := ⟨y 0, y 1, eq_ix2 y⟩
  rw [blk3_eq, blk4_eq, blk5_eq, blk6_eq]
  refine ((read_rows (val_main_v145 (F := Ideal) x2 x4 x9 x10 x11 x12 x16 x17 x18) _ (win3_10.index t) t.val (fun _ _ => rfl) (idx3_rows t).2.2.2.2.2.2 p q (rowOf t p) rfl).trans ?_).symm
  refine (tower_row x9 x10 x11 x12 t p q
    ((l2norm_apply _ p q).trans (congrArg (fun y => l2Row y q) (funext fun k =>
      mlp_apply dot_S2048x192_S192x256_S2048x256_1_0_0_1_n_n rfl _ _ _ _ _ p k)))
    ((refL2_apply _ _ q).trans (congrArg (fun y => l2Row y q) (funext fun k =>
      refMlp_apply Cert.ReferenceIdeal.dot_S16384x192_S192x256_S16384x256_1_0_0_1_n_n rfl _ _ _ _ _ _ k))) ?_).symm
  unfold k3_pay10
  exact concat3_congr _ _ _ _ _ _ _ _ p (rowOf t p) (rowZ t p) (row1 x2 x17 x18 t p) (row2 x4 x16 t p)

end Join

end Cert.Val

end
-- ==== Proof.Val.Final3.lean ====
import proofs.«401583_j19292993094061_1_alg».proof.Proof.HKernelIdeal.Reg3
import proofs.«401583_j19292993094061_1_alg».proof.Proof.Val.ItemTower
import proofs.«401583_j19292993094061_1_alg».proof.Proof.Val.Final2

noncomputable section

namespace Cert.Val

open Idealize.ShloMosaic Idealize.ShloMosaic.TcCoe Idealize.SL.Sem
open Cert.KernelIdeal Cert.KernelIdeal.Gen Cert.KernelIdeal.Hand

variable (V : (c : Dev nD) → (b : Ref sig .tc) → Buf (Elt Ideal) ((c : Thread nD τ).loc b))

variable (c : Dev nD)
  (x1 : (⟨S100001x64, .f32⟩ : BufTy).Contents (Elt Ideal))
  (x2 : (⟨S1001x64, .f32⟩ : BufTy).Contents (Elt Ideal))
  (x4 : (⟨S100001x64, .f32⟩ : BufTy).Contents (Elt Ideal))
  (x9 : (⟨S192x256, .f32⟩ : BufTy).Contents (Elt Ideal))
  (x10 : (⟨S256, .f32⟩ : BufTy).Contents (Elt Ideal))
  (x11 : (⟨S256x64, .f32⟩ : BufTy).Contents (Elt Ideal))
  (x12 : (⟨S64, .f32⟩ : BufTy).Contents (Elt Ideal))
  (x16 : (⟨S16384, .i32⟩ : BufTy).Contents (Elt Ideal))
  (x17 : (⟨S65536, .i32⟩ : BufTy).Contents (Elt Ideal))
  (x18 : (⟨S65536, .i32⟩ : BufTy).Contents (Elt Ideal))
  (h0 : V c main_v21 = ReferenceIdeal.Read.val_main_v57 (F := Ideal) x1 x16)
  (h1 : V c main_v38 = ReferenceIdeal.Read.val_main_v75 (F := Ideal) x2 x17 x18)
  (h2 : V c main_v36 = ReferenceIdeal.Read.val_main_v82 (F := Ideal) x4 x16)
  (h3 : V c main_arg9 = x9)
  (h4 : V c main_arg10 = x10)
  (h5 : V c main_arg11 = x11)
  (h6 : V c main_arg12 = x12)

include h0 h1 h2 h3 h4 h5 h6 in
set_option maxHeartbeats 1000000 in
theorem final3_7 : (dat3 (F := Ideal) V c).arrAt 7 cfg3.N = ReferenceIdeal.Read.val_main_v121 (F := Ideal) x1 x2 x4 x9 x10 x11 x12 x16 x17 x18 :=
  (dat3 V c).arrAt_eq_of_cover 7 _ (fun t _ => by
    rw [Pipeline.Dat.flushed, after3_7]
    unfold out3_7 iblk3
    rw [View.canon_unit_zero origin2_2]
    simp only [View.ld_unit_zero (S := S2048x64) origin2_2, View.ld_unit_zero (S := S192x256) origin2_2, View.ld_unit_zero (S := S256x64) origin2_2,
      View.ld_unit_zero (S := S256) origin2_1, View.ld_unit_zero (S := S64) origin2_1]
    rw [h0, h1, h2, h3, h4, h5, h6]
    exact itemTower_7_block x1 x2 x4 x9 x10 x11 x12 x16 x17 x18 t)
    (rowBlocks_cover flush3_7 (fun _ => View.set_slice_whole _ _) (by decide +kernel))

include h2 in
set_option maxHeartbeats 1000000 in
theorem final3_8 : (dat3 (F := Ideal) V c).arrAt 8 cfg3.N = ReferenceIdeal.Read.val_main_v129 (F := Ideal) x4 x16 :=
  (dat3 V c).arrAt_eq_of_cover 8 _ (fun t _ => by
    rw [Pipeline.Dat.flushed, after3_8]
    unfold out3_8 iblk3
    rw [View.canon_unit_zero origin2_2, View.ld_unit_zero (S := S2048x64) origin2_2, h2]
    exact itemTower_8_block x4 x16 t)
    (rowBlocks_cover flush3_8 (fun _ => View.set_slice_whole _ _) (by decide +kernel))

include h0 h2 h3 h4 h5 h6 in
set_option maxHeartbeats 1000000 in
theorem final3_9 : (dat3 (F := Ideal) V c).arrAt 9 cfg3.N = ReferenceIdeal.Read.val_main_v137 (F := Ideal) x1 x4 x9 x10 x11 x12 x16 :=
  (dat3 V c).arrAt_eq_of_cover 9 _ (fun t _ => by
    rw [Pipeline.Dat.flushed, after3_9]
    unfold out3_9 iblk3
    rw [View.canon_unit_zero origin2_2]
    simp only [View.ld_unit_zero (S := S2048x64) origin2_2, View.ld_unit_zero (S := S192x256) origin2_2, View.ld_unit_zero (S := S256x64) origin2_2,
      View.ld_unit_zero (S := S256) origin2_1, View.ld_unit_zero (S := S64) origin2_1]
    rw [h0, h2, h3, h4, h5, h6]
    exact itemTower_9_block x1 x4 x9 x10 x11 x12 x16 t)
    (rowBlocks_cover flush3_9 (fun _ => View.set_slice_whole _ _) (by decide +kernel))

include h1 h2 h3 h4 h5 h6 in
set_option maxHeartbeats 1000000 in
theorem final3_10 : (dat3 (F := Ideal) V c).arrAt 10 cfg3.N = ReferenceIdeal.Read.val_main_v145 (F := Ideal) x2 x4 x9 x10 x11 x12 x16 x17 x18 :=
  (dat3 V c).arrAt_eq_of_cover 10 _ (fun t _ => by
    rw [Pipeline.Dat.flushed, after3_10]
    unfold out3_10 iblk3
    rw [View.canon_unit_zero origin2_2]
    simp only [View.ld_unit_zero (S := S2048x64) origin2_2, View.ld_unit_zero (S := S192x256) origin2_2, View.ld_unit_zero (S := S256x64) origin2_2,
      View.ld_unit_zero (S := S256) origin2_1, View.ld_unit_zero (S := S64) origin2_1]
    rw [h1, h2, h3, h4, h5, h6]
    exact itemTower_10_block x2 x4 x9 x10 x11 x12 x16 x17 x18 t)
    (rowBlocks_cover flush3_10 (fun _ => View.set_slice_whole _ _) (by decide +kernel))

end Cert.Val

end
-- ==== Proof.Val.Results.lean ====
import proofs.«401583_j19292993094061_1_alg».proof.Proof.HKernelIdeal.Keep
import proofs.«401583_j19292993094061_1_alg».proof.Proof.Val.Glue
import proofs.«401583_j19292993094061_1_alg».proof.Proof.Val.Final0
import proofs.«401583_j19292993094061_1_alg».proof.Proof.Val.Final1
import proofs.«401583_j19292993094061_1_alg».proof.Proof.Val.Final2
import proofs.«401583_j19292993094061_1_alg».proof.Proof.Val.Final3

set_option maxRecDepth 16384

noncomputable section

namespace Cert.Val

open Idealize.ShloMosaic Idealize.ShloMosaic.TcCoe Idealize.SL.Sem
open Cert.KernelIdeal Cert.KernelIdeal.Gen Cert.KernelIdeal.Hand

section Results
open Cert.ReferenceIdeal.Read

variable (m : (ℓ : Loc nD τ sig) → Buf (Elt Ideal) ℓ) (ρ : Dev nD → PrngReg) (c : Dev nD)

theorem launch_at3 (b : Ref sig .tc) (h : b ∉ hostOps0_W ∧ b ≠ main_v37 ∧ b ≠ main_v38) : V3 m ρ c b = arg m c b :=
  (W3_eq_W1 m ρ c b h.2).trans (W1_launch m ρ c b h.1)

theorem launch_at4 (b : Ref sig .tc)
    (h : b ∉ hostOps0_W ∧ (b ≠ main_v37 ∧ b ≠ main_v38) ∧ b ≠ main_v39_0 ∧ b ≠ main_v39_1) : V4 m ρ c b = arg m c b :=
  (W4_eq_W1 m ρ c b h.2).trans (W1_launch m ρ c b h.1)

theorem mean_at2 : W2 m ρ c (Proc.devRef .tc main_v37)
    = val_main_v17 (F := Ideal) (arg m c main_arg0) (arg m c main_arg14) (arg m c main_arg15) :=
  (W2_arr m ρ c 2).trans (final0 (V1 m ρ) c _ _ _ (W1_launch m ρ c main_arg15 (by decide)) (glue_v7 m ρ c))

theorem tagmean_at3 : W3 m ρ c (Proc.devRef .tc main_v38)
    = val_main_v75 (F := Ideal) (arg m c main_arg2) (arg m c main_arg17) (arg m c main_arg18) :=
  (W3_arr m ρ c 2).trans (final1 (V2 m ρ) c _ _ _
    ((W2_keep m ρ c main_arg18 (by decide)).trans (W1_launch m ρ c main_arg18 (by decide)))
    ((W2_keep m ρ c main_v29 (by decide)).trans (glue_v29 m ρ c)))

theorem mean_at3 : V3 m ρ c main_v37
    = val_main_v17 (F := Ideal) (arg m c main_arg0) (arg m c main_arg14) (arg m c main_arg15) :=
  (W3_keep m ρ c main_v37 (by decide)).trans (mean_at2 m ρ c)
theorem gdat_at3 : V3 m ρ c main_v14 = val_main_v24 (F := Ideal) (arg m c main_arg3) (arg m c main_arg13) :=
  (W3_eq_W1 m ρ c main_v14 (by decide)).trans (glue_v14 m ρ c)

theorem item_at4 : V4 m ρ c main_v21 = val_main_v57 (F := Ideal) (arg m c main_arg1) (arg m c main_arg16) :=
  (W4_eq_W1 m ρ c main_v21 (by decide)).trans (glue_v21 m ρ c)
theorem tagmean_at4 : V4 m ρ c main_v38
    = val_main_v75 (F := Ideal) (arg m c main_arg2) (arg m c main_arg17) (arg m c main_arg18) :=
  (W4_keep m ρ c main_v38 (by decide)).trans (tagmean_at3 m ρ c)
theorem idat_at4 : V4 m ρ c main_v36 = val_main_v82 (F := Ideal) (arg m c main_arg4) (arg m c main_arg16) :=
  (W4_eq_W1 m ρ c main_v36 (by decide)).trans (glue_v36 m ρ c)

theorem res0 : W5 m ρ c (Proc.devRef .tc main_v39_0)
    = val_main_v42 (F := Ideal) (arg m c main_arg0) (arg m c main_arg3) (arg m c main_arg5) (arg m c main_arg6)
        (arg m c main_arg7) (arg m c main_arg8) (arg m c main_arg13) (arg m c main_arg14) (arg m c main_arg15) :=
  (W5_keep m ρ c main_v39_0 (by decide)).trans ((W4_arr m ρ c 6).trans (final2_6 (V3 m ρ) c _ _ _ _ _ _ _ _ _
    (mean_at3 m ρ c) (gdat_at3 m ρ c)
    (launch_at3 m ρ c main_arg5 (by decide))
    (launch_at3 m ρ c main_arg6 (by decide))
    (launch_at3 m ρ c main_arg7 (by decide))
    (launch_at3 m ρ c main_arg8 (by decide))))

theorem res1 : W5 m ρ c (Proc.devRef .tc main_v39_1)
    = val_main_v50 (F := Ideal) (arg m c main_arg3) (arg m c main_arg13) :=
  (W5_keep m ρ c main_v39_1 (by decide)).trans ((W4_arr m ρ c 7).trans (final2_7 (V3 m ρ) c _ _ (gdat_at3 m ρ c)))

theorem res2 : W5 m ρ c (Proc.devRef .tc main_v40_0)
    = val_main_v121 (F := Ideal) (arg m c main_arg1) (arg m c main_arg2) (arg m c main_arg4) (arg m c main_arg9)
        (arg m c main_arg10) (arg m c main_arg11) (arg m c main_arg12) (arg m c main_arg16) (arg m c main_arg17) (arg m c main_arg18) :=
  (W5_arr m ρ c 7).trans (final3_7 (V4 m ρ) c _ _ _ _ _ _ _ _ _ _
    (item_at4 m ρ c) (tagmean_at4 m ρ c) (idat_at4 m ρ c)
    (launch_at4 m ρ c main_arg9 (by decide))
    (launch_at4 m ρ c main_arg10 (by decide))
    (launch_at4 m ρ c main_arg11 (by decide))
    (launch_at4 m ρ c main_arg12 (by decide)))

theorem res3 : W5 m ρ c (Proc.devRef .tc main_v40_1)
    = val_main_v129 (F := Ideal) (arg m c main_arg4) (arg m c main_arg16) :=
  (W5_arr m ρ c 8).trans (final3_8 (V4 m ρ) c _ _ (idat_at4 m ρ c))

theorem res4 : W5 m ρ c (Proc.devRef .tc main_v40_2)
    = val_main_v137 (F := Ideal) (arg m c main_arg1) (arg m c main_arg4) (arg m c main_arg9)
        (arg m c main_arg10) (arg m c main_arg11) (arg m c main_arg12) (arg m c main_arg16) :=
  (W5_arr m ρ c 9).trans (final3_9 (V4 m ρ) c _ _ _ _ _ _ _
    (item_at4 m ρ c) (idat_at4 m ρ c)
    (launch_at4 m ρ c main_arg9 (by decide))
    (launch_at4 m ρ c main_arg10 (by decide))
    (launch_at4 m ρ c main_arg11 (by decide))
    (launch_at4 m ρ c main_arg12 (by decide)))

theorem res5 : W5 m ρ c (Proc.devRef .tc main_v40_3)
    = val_main_v145 (F := Ideal) (arg m c main_arg2) (arg m c main_arg4) (arg m c main_arg9)
        (arg m c main_arg10) (arg m c main_arg11) (arg m c main_arg12) (arg m c main_arg16) (arg m c main_arg17) (arg m c main_arg18) :=
  (W5_arr m ρ c 10).trans (final3_10 (V4 m ρ) c _ _ _ _ _ _ _ _ _
    (tagmean_at4 m ρ c) (idat_at4 m ρ c)
    (launch_at4 m ρ c main_arg9 (by decide))
    (launch_at4 m ρ c main_arg10 (by decide))
    (launch_at4 m ρ c main_arg11 (by decide))
    (launch_at4 m ρ c main_arg12 (by decide)))

end Results

end Cert.Val

end
-- ==== Proof.lean ====
import proofs.«401583_j19292993094061_1_alg».proof.Defs
import proofs.«401583_j19292993094061_1_alg».proof.Proof.Gen.Kernel
import proofs.«401583_j19292993094061_1_alg».proof.Proof.Gen.KernelIdeal
import proofs.«401583_j19292993094061_1_alg».proof.Proof.Gen.ReferenceIdeal
import proofs.«401583_j19292993094061_1_alg».proof.Proof.Gen.Pre_finite_inputs
import proofs.«401583_j19292993094061_1_alg».proof.Proof.Gen.ReferenceIdeal.Run
import proofs.«401583_j19292993094061_1_alg».proof.Proof.HKernelIdeal.Keep
import proofs.«401583_j19292993094061_1_alg».proof.Proof.Val.Results

set_option maxRecDepth 16384

open Lean Elab Tactic in
elab "exact_unfolded " e:term : tactic => do
  (← getMainGoal).assign (← Tactic.elabTerm e none)
  replaceMainGoal []

noncomputable section

namespace Cert.Proof

open Idealize.ShloMosaic Idealize.SL.Sem

theorem frame_ki : Cert.frame_KernelIdeal := fun m ρ _ => Cert.KernelIdeal.Hand.frame_at (F := Ideal) m ρ

-- The kernel program and its idealization are one text under two names (nothing was rewritten), so the frame
-- proved for that text at any float instance is the kernel program's own.
theorem frame_k : Cert.frame_Kernel := fun m ρ _ => by exact_unfolded Cert.KernelIdeal.Hand.frame_at (F := Bits) m ρ

theorem frame_ri : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

-- The kernel's six results are read off the last buffer contents of its run; each is the reference's value.
theorem algebraic : Cert.algebraic_KernelIdeal_ReferenceIdeal := by
  intro m ρ m' ρ' _ hagree
  refine ⟨fun c => Cert.KernelIdeal.Hand.W5 m ρ c (Proc.devRef .tc Cert.KernelIdeal.main_v39_0),
    fun c => Cert.KernelIdeal.Hand.W5 m ρ c (Proc.devRef .tc Cert.KernelIdeal.main_v39_1),
    fun c => Cert.KernelIdeal.Hand.W5 m ρ c (Proc.devRef .tc Cert.KernelIdeal.main_v40_0),
    fun c => Cert.KernelIdeal.Hand.W5 m ρ c (Proc.devRef .tc Cert.KernelIdeal.main_v40_1),
    fun c => Cert.KernelIdeal.Hand.W5 m ρ c (Proc.devRef .tc Cert.KernelIdeal.main_v40_2),
    fun c => Cert.KernelIdeal.Hand.W5 m ρ c (Proc.devRef .tc Cert.KernelIdeal.main_v40_3), ?_, ?_⟩
  · exact (θ_run Cert.KernelIdeal.defs _ _).mono (fun r h c => ⟨
      (h c).1 _ (Cert.KernelIdeal.Hand.mem_uc Cert.KernelIdeal.main_v39_0 (by decide)),
      (h c).1 _ (Cert.KernelIdeal.Hand.mem_uc Cert.KernelIdeal.main_v39_1 (by decide)),
      (h c).1 _ (Cert.KernelIdeal.Hand.mem_uc Cert.KernelIdeal.main_v40_0 (by decide)),
      (h c).1 _ (Cert.KernelIdeal.Hand.mem_uc Cert.KernelIdeal.main_v40_1 (by decide)),
      (h c).1 _ (Cert.KernelIdeal.Hand.mem_uc Cert.KernelIdeal.main_v40_2 (by decide)),
      (h c).1 _ (Cert.KernelIdeal.Hand.mem_uc Cert.KernelIdeal.main_v40_3 (by decide)),
      (h c).2⟩) (Cert.KernelIdeal.Hand.run_args (F := Ideal) m ρ)
  · refine (θ_run Cert.ReferenceIdeal.defs _ _).mono (fun r h c => ?_) (Cert.ReferenceIdeal.Value.run (F := Ideal) m' ρ')
    obtain ⟨h0, h1, h2, h3, h4, h5, hargs⟩ := h c
    obtain ⟨a0, a1, a2, a3, a4, a5, a6, a7, a8, a9, a10, a11, a12, a13, a14, a15, a16, a17, a18⟩ := hagree c
    refine ⟨h0.trans ?_, h1.trans ?_, h2.trans ?_, h3.trans ?_, h4.trans ?_, h5.trans ?_, hargs⟩
    · rw [Cert.ReferenceIdeal.Read.val_main_v42_eq, a0, a3, a5, a6, a7, a8, a13, a14, a15]; exact (Cert.Val.res0 m ρ c).symm
    · rw [a3, a13]; exact (Cert.ReferenceIdeal.Read.val_main_v50_eq _ _).trans (Cert.Val.res1 m ρ c).symm
    · rw [Cert.ReferenceIdeal.Read.val_main_v121_eq, a1, a2, a4, a9, a10, a11, a12, a16, a17, a18]; exact (Cert.Val.res2 m ρ c).symm
    · rw [a4, a16]; exact (Cert.ReferenceIdeal.Read.val_main_v129_eq _ _).trans (Cert.Val.res3 m ρ c).symm
    · rw [Cert.ReferenceIdeal.Read.val_main_v137_eq, a1, a4, a9, a10, a11, a12, a16]; exact (Cert.Val.res4 m ρ c).symm
    · rw [Cert.ReferenceIdeal.Read.val_main_v145_eq, a2, a4, a9, a10, a11, a12, a16, a17, a18]; exact (Cert.Val.res5 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
